-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S32000x256 : Shape := ⟨2, ![32000, 256]⟩
abbrev S10x24x256x256 : Shape := ⟨4, ![10, 24, 256, 256]⟩
abbrev S32000 : Shape := ⟨1, ![32000]⟩
abbrev S_ : Shape := ⟨0, ![]⟩

class Facts : Prop where
  bcast_S_S32000x256 : S_.BroadcastsInDim S32000x256 (![] : Fin 0 → Fin S32000x256.rank)
  reducesTo_S32000x256_S_d0_1 : S32000x256.ReducesTo [0, 1] S_
  h_S_ : 0 < S_.numel
  bcast_S_S10x24x256x256 : S_.BroadcastsInDim S10x24x256x256 (![] : Fin 0 → Fin S10x24x256x256.rank)
  reducesTo_S10x24x256x256_S_d0_1_2_3 : S10x24x256x256.ReducesTo [0, 1, 2, 3] S_
  bcast_S_S32000 : S_.BroadcastsInDim S32000 (![] : Fin 0 → Fin S32000.rank)
  reducesTo_S32000_S_d0 : S32000.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg0 : IVec S256x256 32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_c_6 : IVec S_ 32 := constantI S_ 32 0#32
  let main_v19 : IVec S256x256 32 := broadcastInDim S256x256 ![] bcast_S_S256x256 main_c_6
  let main_v20 : IVec S256x256 1 := cmpi .sge main_arg0 main_v19
  let main_c_7 : IVec S_ 32 := constantI S_ 32 32000#32
  let main_v21 : IVec S256x256 32 := broadcastInDim S256x256 ![] bcast_S_S256x256 main_c_7
  let main_v22 : IVec S256x256 1 := cmpi .slt main_arg0 main_v21
  let main_v23 : IVec S256x256 1 := andi main_v20 main_v22
  let main_c_8 : IVec S_ 1 := constantI S_ 1 1#1
  let main_v24 : IVec S_ 1 := (fun x v => Host.reduce IntOp.andi x v reducesTo_S256x256_S_d0_1 h_S_) main_v23 main_c_8
  let main_v25 : IVec S_ 1 := andi main_v18 main_v24
  main_v25

def fn {F : FTy → Type} [FloatOps F] (main_arg0 : IVec S256x256 32) (main_arg1 : FVec F S32000x256 .f32) (main_arg2 : FVec F S10x24x256x256 .f32) (main_arg3 : FVec F S32000x256 .f32) (main_arg4 : FVec F S32000 .f32) : IVec S_ 1 :=
  let main_v0 : FVec F S32000x256 .f32 := Host.absf main_arg1
  let main_cst : FVec F S_ .f32 := constant S_ .f32 0x7F800000#32
  let main_v1 : FVec F S32000x256 .f32 := broadcastInDim S32000x256 ![] bcast_S_S32000x256 main_cst
  let main_v2 : IVec S32000x256 1 := cmpf .olt main_v0 main_v1
  let main_c : IVec S_ 1 := constantI S_ 1 1#1
  let main_v3 : IVec S_ 1 := (fun x v => Host.reduce IntOp.andi x v reducesTo_S32000x256_S_d0_1 h_S_) main_v2 main_c
  let main_v4 : FVec F S10x24x256x256 .f32 := Host.absf main_arg2
  let main_cst_0 : FVec F S_ .f32 := constant S_ .f32 0x7F800000#32
  let main_v5 : FVec F S10x24x256x256 .f32 := broadcastInDim S10x24x256x256 ![] bcast_S_S10x24x256x256 main_cst_0
  let main_v6 : IVec S10x24x256x256 1 := cmpf .olt main_v4 main_v5
  let main_c_1 : IVec S_ 1 := constantI S_ 1 1#1
  let main_v7 : IVec S_ 1 := (fun x v => Host.reduce IntOp.andi x v reducesTo_S10x24x256x256_S_d0_1_2_3 h_S_) main_v6 main_c_1
  let main_v8 : IVec S_ 1 := andi main_v3 main_v7
  let main_v9 : FVec F S32000x256 .f32 := Host.absf main_arg3
  let main_cst_2 : FVec F S_ .f32 := constant S_ .f32 0x7F800000#32
  let main_v10 : FVec F S32000x256 .f32 := broadcastInDim S32000x256 ![] bcast_S_S32000x256 main_cst_2
  let main_v11 : IVec S32000x256 1 := cmpf .olt main_v9 main_v10
  let main_c_3 : IVec S_ 1 := constantI S_ 1 1#1
  let main_v12 : IVec S_ 1 := (fun x v => Host.reduce IntOp.andi x v reducesTo_S32000x256_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg0 main_v13 main_v16
-- ==== Kernel.lean ====
abbrev S256x256 : Shape := ⟨2, ![256, 256]⟩
abbrev S32000x256 : Shape := ⟨2, ![32000, 256]⟩
abbrev S10x24x256x256 : Shape := ⟨4, ![10, 24, 256, 256]⟩
abbrev S32000 : Shape := ⟨1, ![32000]⟩
abbrev S_ : Shape := ⟨0, ![]⟩
abbrev S256x256x1 : Shape := ⟨3, ![256, 256, 1]⟩
abbrev S1 : Shape := ⟨1, ![1]⟩
abbrev S1x1x1 : Shape := ⟨3, ![1, 1, 1]⟩
abbrev S256x256x256 : Shape := ⟨3, ![256, 256, 256]⟩
abbrev S10x1x256x256 : Shape := ⟨4, ![10, 1, 256, 256]⟩
abbrev S10x256x256 : Shape := ⟨3, ![10, 256, 256]⟩
abbrev S8x256x256 : Shape := ⟨3, ![8, 256, 256]⟩
abbrev S1x256x256 : Shape := ⟨3, ![1, 256, 256]⟩
abbrev S8x256 : Shape := ⟨2, ![8, 256]⟩
abbrev S2048x256 : Shape := ⟨2, ![2048, 256]⟩
abbrev S8x1x256 : Shape := ⟨3, ![8, 1, 256]⟩
abbrev S1x32000 : Shape := ⟨2, ![1, 32000]⟩
abbrev S256x32000 : Shape := ⟨2, ![256, 32000]⟩
abbrev S3200x256 : Shape := ⟨2, ![3200, 256]⟩
abbrev S1x3200 : Shape := ⟨2, ![1, 3200]⟩
abbrev S256x3200 : Shape := ⟨2, ![256, 3200]⟩

abbrev nBuf : Space → Nat
  | .hbm => 35
  | .vmem => 16
  | .smem => 0
  | _ => 0

abbrev bufTy : (tb : Table) → Fin (tcTables nBuf tb) → BufTy
  | .hbm, ⟨0, _⟩ => ⟨S256x256, .i32⟩
  | .hbm, ⟨1, _⟩ => ⟨S32000x256, .f32⟩
  | .hbm, ⟨2, _⟩ => ⟨S10x24x256x256, .f32⟩
  | .hbm, ⟨3, _⟩ => ⟨S32000x256, .f32⟩
  | .hbm, ⟨4, _⟩ => ⟨S32000, .f32⟩
  | .hbm, ⟨5, _⟩ => ⟨S_, .i32⟩
  | .hbm, ⟨6, _⟩ => ⟨S256x256, .i32⟩
  | .hbm, ⟨7, _⟩ => ⟨S256x256, .i1⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S256x256x1, .i32⟩
  | .hbm, ⟨13, _⟩ => ⟨S1, .i32⟩
  | .hbm, ⟨14, _⟩ => ⟨S_, .i32⟩
  | .hbm, ⟨15, _⟩ => ⟨S256x256x1, .i32⟩
  | .hbm, ⟨16, _⟩ => ⟨S256x256x1, .i1⟩
  | .hbm, ⟨17, _⟩ => ⟨S1x1x1, .i32⟩
  | .hbm, ⟨18, _⟩ => ⟨S256x256x1, .i32⟩
  | .hbm, ⟨19, _⟩ => ⟨S256x256x1, .i1⟩
  | .hbm, ⟨20, _⟩ => ⟨S256x256x1, .i1⟩
  | .hbm, ⟨21, _⟩ => ⟨S_, .i1⟩
  | .hbm, ⟨22, _⟩ => ⟨S256x256, .i1⟩
  | .hbm, ⟨23, _⟩ => ⟨S256x256x256, .f32⟩
  | .hbm, ⟨24, _⟩ => ⟨S256x256x256, .i1⟩
  | .hbm, ⟨25, _⟩ => ⟨S_, .f32⟩
  | .hbm, ⟨26, _⟩ => ⟨S256x256x256, .f32⟩
  | .hbm, ⟨27, _⟩ => ⟨S256x256x256, .f32⟩
  | .hbm, ⟨28, _⟩ => ⟨S10x1x256x256, .f32⟩
  | .hbm, ⟨29, _⟩ => ⟨S10x256x256, .f32⟩
  | .hbm, ⟨30, _⟩ => ⟨S10x1x256x256, .f32⟩
  | .hbm, ⟨31, _⟩ => ⟨S10x256x256, .f32⟩
  | .hbm, ⟨32, _⟩ => ⟨S256x256, .f32⟩
  | .hbm, ⟨33, _⟩ => ⟨S1x32000, .f32⟩
  | .hbm, ⟨34, _⟩ => ⟨S256x32000, .f32⟩
  | .local _ .vmem, ⟨0, _⟩ => ⟨S8x256x256, .f32⟩
  | .local _ .vmem, ⟨1, _⟩ => ⟨S8x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S8x256, .f32⟩
  | .local _ .vmem, ⟨7, _⟩ => ⟨S8x256, .f32⟩
  | .local _ .vmem, ⟨8, _⟩ => ⟨S8x256x256, .f32⟩
  | .local _ .vmem, ⟨9, _⟩ => ⟨S256x256, .f32⟩
  | .local _ .vmem, ⟨10, _⟩ => ⟨S3200x256, .f32⟩
  | .local _ .vmem, ⟨11, _⟩ => ⟨S3200x256, .f32⟩
  | .local _ .vmem, ⟨12, _⟩ => ⟨S1x3200, .f32⟩
  | .local _ .vmem, ⟨13, _⟩ => ⟨S1x3200, .f32⟩
  | .local _ .vmem, ⟨14, _⟩ => ⟨S256x3200, .f32⟩
  | .local _ .vmem, ⟨15, _⟩ => ⟨S256x3200, .f32⟩
  | _, _ => ⟨S256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c9_i32 : BitVec 32 := 9#32
  let v35 : BitVec 1 := Scalar.cmpi .eq arg1 c9_i32
  let v36 : BitVec 32 := Scalar.extui v35
  let c0_i32_18 : BitVec 32 := 0#32
  let v37 : BitVec 1 := Scalar.cmpi .ne v36 c0_i32_18
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S1_S1x1x1_2 : S1.BroadcastsInDim S1x1x1 (![2] : Fin 1 → Fin S1x1x1.rank)
  bcast_S1x1x1_S256x256x1_0_1_2 : S1x1x1.BroadcastsInDim S256x256x1 (![0, 1, 2] : Fin 3 → Fin S256x256x1.rank)
  reducesTo_S256x256x1_S256x256_d2 : S256x256x1.ReducesTo [2] S256x256
  h_S_ : 0 < S_.numel
  bcast_S256x256_S256x256x256_0_1 : S256x256.BroadcastsInDim S256x256x256 (![0, 1] : Fin 2 → Fin S256x256x256.rank)
  bcast_S_S256x256x256 : S_.BroadcastsInDim S256x256x256 (![] : Fin 0 → Fin S256x256x256.rank)
  slices_S10x24x256x256_S10x1x256x256_0_3_0_0 : S10x24x256x256.Slices ![0, 3, 0, 0] S10x1x256x256
  shapeCasts_S10x1x256x256_S10x256x256 : S10x1x256x256.ShapeCasts S10x256x256
  slices_S10x24x256x256_S10x1x256x256_0_1_0_0 : S10x24x256x256.Slices ![0, 1, 0, 0] S10x1x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S8x256x256_S2048x256 : S8x256x256.ShapeCasts S2048x256
  shapeCasts_S2048x256_S8x256x256 : S2048x256.ShapeCasts S8x256x256
  iota_S8x256x256_d1_w32 : S8x256x256.Iotas .tc 32 [1]
  rotates_S8x256x256_d1 : S8x256x256.Rotates 1 none
  slices_S8x256x256_o0_255_0_S8x1x256 : S8x256x256.Slices ![0, 255, 0] S8x1x256
  shapeCasts_S8x1x256_S8x256 : S8x1x256.ShapeCasts S8x256
  inb_S8x256_S8x256_0_0 : ∀ a, (![0, 0] : Fin 2 → Nat) a + S8x256.size a ≤ S8x256.size a
  h_S8x256 : 0 < S8x256.numel
  shapeCasts_S32000_S1x32000 : S32000.ShapeCasts S1x32000
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3200x256_S3200x256_0_0 : ∀ a, (![0, 0] : Fin 2 → Nat) a + S3200x256.size a ≤ S3200x256.size a
  h_S3200x256 : 0 < S3200x256.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S256x3200 : S1x3200.Broadcasts S256x3200
  inb_S256x3200_S256x3200_0_0 : ∀ a, (![0, 0] : Fin 2 → Nat) a + S256x3200.size a ≤ S256x3200.size a
  h_S256x3200 : 0 < S256x3200.numel
  gather_S32000x256_S256x256x1_S256x256x256_2_0_n_n_0_2_1256_wf : GatherDims.WF S32000x256 S256x256x1 S256x256x256 [2] [0] [] [0] [] 2 ![1, 256]
  dot_S2048x256_S256x256_S2048x256_1_0_0_1_n_n_wf : DotDims.WF S2048x256 S256x256 S2048x256 [1] [0] [0] [1] [] []
  dot_S256x256_S3200x256_S256x3200_1_1_0_0_n_n_wf : DotDims.WF S256x256 S3200x256 S256x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S256x256x256.size a
  hwx0_0 : ∀ i : grid0.Coords, EltTy.bits .f32 = 32 ∨ (Rect.block (s := S256x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S10x256x256.size a
  hwx0_1 : ∀ i : grid0.Coords, EltTy.bits .f32 = 32 ∨ (Rect.block (s := S10x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S10x256x256.size a
  hwx0_2 : ∀ i : grid0.Coords, EltTy.bits .f32 = 32 ∨ (Rect.block (s := S10x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S256x256.size a
  hwx0_3 : ∀ i : grid0.Coords, EltTy.bits .f32 = 32 ∨ (Rect.block (s := S256x256) S8x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S32000x256.size a
  hwx1_1 : ∀ i : grid1.Coords, EltTy.bits .f32 = 32 ∨ (Rect.block (s := S32000x256) S3200x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x3200.size a ≤ S256x32000.size a
  hwx1_3 : ∀ i : grid1.Coords, EltTy.bits .f32 = 32 ∨ (Rect.block (s := S256x32000) S256x3200.size (cc1_transform_3 i) (hinb1_3 i)).WholeWords (EltTy.packing .f32)

variable [Facts₀]

def gather_S32000x256_S256x256x1_S256x256x256_2_0_n_n_0_2_1256 : GatherDims S32000x256 S256x256x1 S256x256x256 where
  offsetDims := [2]
  collapsedSliceDims := [0]
  operandBatchingDims := []
  startIndicesBatchingDims := []
  startIndexMap := [0]
  indexVectorDim := 2
  sliceSizes := ![1, 256]
  wf := gather_S32000x256_S256x256x1_S256x256x256_2_0_n_n_0_2_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S3200x256_S256x3200_1_1_0_0_n_n : DotDims S256x256 S3200x256 S256x3200 where
  lhsContracting := [1]
  rhsContracting := [1]
  lhsNonContracting := [0]
  rhsNonContracting := [0]
  lhsBatch := []
  rhsBatch := []
  wf := dot_S256x256_S3200x256_S256x3200_1_1_0_0_n_n_wf

abbrev win0_0 : Pipeline.Window sig grid0 :=
  Pipeline.Window.ofSpec (Memref.whole main_v0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v5) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x256 : Shape := ⟨2, ![256, 256]⟩
abbrev S32000x256 : Shape := ⟨2, ![32000, 256]⟩
abbrev S10x24x256x256 : Shape := ⟨4, ![10, 24, 256, 256]⟩
abbrev S32000 : Shape := ⟨1, ![32000]⟩
abbrev S_ : Shape := ⟨0, ![]⟩
abbrev S256x256x1 : Shape := ⟨3, ![256, 256, 1]⟩
abbrev S256x256x256 : Shape := ⟨3, ![256, 256, 256]⟩
abbrev S1x24x256x256 : Shape := ⟨4, ![1, 24, 256, 256]⟩
abbrev S24x256x256 : Shape := ⟨3, ![24, 256, 256]⟩
abbrev S1x256x256 : Shape := ⟨3, ![1, 256, 256]⟩
abbrev S256x255x256 : Shape := ⟨3, ![256, 255, 256]⟩
abbrev S1 : Shape := ⟨1, ![1]⟩
abbrev S255 : Shape := ⟨1, ![255]⟩
abbrev S256 : Shape := ⟨1, ![256]⟩
abbrev S1x256x1 : Shape := ⟨3, ![1, 256, 1]⟩
abbrev S256x1x256 : Shape := ⟨3, ![256, 1, 256]⟩
abbrev S256x32000 : Shape := ⟨2, ![256, 32000]⟩
abbrev S1x32000 : Shape := ⟨2, ![1, 32000]⟩

abbrev nBuf : Space → Nat
  | .hbm => 251
  | .vmem => 0
  | .smem => 0
  | _ => 0

abbrev hbmTy0_0 (i : Nat) : BufTy := match i % 128 with
  | 0 => ⟨S256x256, .i32⟩
  | 1 => ⟨S32000x256, .f32⟩
  | 2 => ⟨S10x24x256x256, .f32⟩
  | 3 => ⟨S32000x256, .f32⟩
  | 4 => ⟨S32000, .f32⟩
  | 5 => ⟨S_, .i32⟩
  | 6 => ⟨S256x256, .i32⟩
  | 7 => ⟨S256x256, .i1⟩
  | 8 => ⟨S_, .i32⟩
  | 9 => ⟨S256x256, .i32⟩
  | 10 => ⟨S256x256, .i32⟩
  | 11 => ⟨S256x256, .i32⟩
  | 12 => ⟨S256x256x1, .i32⟩
  | 13 => ⟨S256x256x256, .f32⟩
  | 14 => ⟨S1x24x256x256, .f32⟩
  | 15 => ⟨S24x256x256, .f32⟩
  | 16 => ⟨S1x256x256, .f32⟩
  | 17 => ⟨S256x256, .f32⟩
  | 18 => ⟨S256x256x256, .f32⟩
  | 19 => ⟨S256x255x256, .f32⟩
  | 20 => ⟨S1x256x256, .f32⟩
  | 21 => ⟨S256x256, .f32⟩
  | 22 => ⟨S256x255x256, .f32⟩
  | 23 => ⟨S_, .i32⟩
  | 24 => ⟨S1, .i32⟩
  | 25 => ⟨S256x256x256, .f32⟩
  | 26 => ⟨S_, .f32⟩
  | 27 => ⟨S1, .f32⟩
  | 28 => ⟨S_, .f32⟩
  | 29 => ⟨S255, .f32⟩
  | 30 => ⟨S256, .f32⟩
  | 31 => ⟨S1x256x1, .f32⟩
  | 32 => ⟨S256x256x256, .f32⟩
  | 33 => ⟨S256x256x256, .f32⟩
  | 34 => ⟨S_, .f32⟩
  | 35 => ⟨S256x256x256, .f32⟩
  | 36 => ⟨S256x256x256, .f32⟩
  | 37 => ⟨S1x24x256x256, .f32⟩
  | 38 => ⟨S24x256x256, .f32⟩
  | 39 => ⟨S1x256x256, .f32⟩
  | 40 => ⟨S256x256, .f32⟩
  | 41 => ⟨S256x256x256, .f32⟩
  | 42 => ⟨S256x255x256, .f32⟩
  | 43 => ⟨S1x256x256, .f32⟩
  | 44 => ⟨S256x256, .f32⟩
  | 45 => ⟨S256x255x256, .f32⟩
  | 46 => ⟨S_, .i32⟩
  | 47 => ⟨S1, .i32⟩
  | 48 => ⟨S256x256x256, .f32⟩
  | 49 => ⟨S_, .f32⟩
  | 50 => ⟨S1, .f32⟩
  | 51 => ⟨S_, .f32⟩
  | 52 => ⟨S255, .f32⟩
  | 53 => ⟨S256, .f32⟩
  | 54 => ⟨S1x256x1, .f32⟩
  | 55 => ⟨S256x256x256, .f32⟩
  | 56 => ⟨S256x256x256, .f32⟩
  | 57 => ⟨S_, .f32⟩
  | 58 => ⟨S256x256x256, .f32⟩
  | 59 => ⟨S256x256x256, .f32⟩
  | 60 => ⟨S1x24x256x256, .f32⟩
  | 61 => ⟨S24x256x256, .f32⟩
  | 62 => ⟨S1x256x256, .f32⟩
  | 63 => ⟨S256x256, .f32⟩
  | 64 => ⟨S256x256x256, .f32⟩
  | 65 => ⟨S256x255x256, .f32⟩
  | 66 => ⟨S1x256x256, .f32⟩
  | 67 => ⟨S256x256, .f32⟩
  | 68 => ⟨S256x255x256, .f32⟩
  | 69 => ⟨S_, .i32⟩
  | 70 => ⟨S1, .i32⟩
  | 71 => ⟨S256x256x256, .f32⟩
  | 72 => ⟨S_, .f32⟩
  | 73 => ⟨S1, .f32⟩
  | 74 => ⟨S_, .f32⟩
  | 75 => ⟨S255, .f32⟩
  | 76 => ⟨S256, .f32⟩
  | 77 => ⟨S1x256x1, .f32⟩
  | 78 => ⟨S256x256x256, .f32⟩
  | 79 => ⟨S256x256x256, .f32⟩
  | 80 => ⟨S_, .f32⟩
  | 81 => ⟨S256x256x256, .f32⟩
  | 82 => ⟨S256x256x256, .f32⟩
  | 83 => ⟨S1x24x256x256, .f32⟩
  | 84 => ⟨S24x256x256, .f32⟩
  | 85 => ⟨S1x256x256, .f32⟩
  | 86 => ⟨S256x256, .f32⟩
  | 87 => ⟨S256x256x256, .f32⟩
  | 88 => ⟨S256x255x256, .f32⟩
  | 89 => ⟨S1x256x256, .f32⟩
  | 90 => ⟨S256x256, .f32⟩
  | 91 => ⟨S256x255x256, .f32⟩
  | 92 => ⟨S_, .i32⟩
  | 93 => ⟨S1, .i32⟩
  | 94 => ⟨S256x256x256, .f32⟩
  | 95 => ⟨S_, .f32⟩
  | 96 => ⟨S1, .f32⟩
  | 97 => ⟨S_, .f32⟩
  | 98 => ⟨S255, .f32⟩
  | 99 => ⟨S256, .f32⟩
  | 100 => ⟨S1x256x1, .f32⟩
  | 101 => ⟨S256x256x256, .f32⟩
  | 102 => ⟨S256x256x256, .f32⟩
  | 103 => ⟨S_, .f32⟩
  | 104 => ⟨S256x256x256, .f32⟩
  | 105 => ⟨S256x256x256, .f32⟩
  | 106 => ⟨S1x24x256x256, .f32⟩
  | 107 => ⟨S24x256x256, .f32⟩
  | 108 => ⟨S1x256x256, .f32⟩
  | 109 => ⟨S256x256, .f32⟩
  | 110 => ⟨S256x256x256, .f32⟩
  | 111 => ⟨S256x255x256, .f32⟩
  | 112 => ⟨S1x256x256, .f32⟩
  | 113 => ⟨S256x256, .f32⟩
  | 114 => ⟨S256x255x256, .f32⟩
  | 115 => ⟨S_, .i32⟩
  | 116 => ⟨S1, .i32⟩
  | 117 => ⟨S256x256x256, .f32⟩
  | 118 => ⟨S_, .f32⟩
  | 119 => ⟨S1, .f32⟩
  | 120 => ⟨S_, .f32⟩
  | 121 => ⟨S255, .f32⟩
  | 122 => ⟨S256, .f32⟩
  | 123 => ⟨S1x256x1, .f32⟩
  | 124 => ⟨S256x256x256, .f32⟩
  | 125 => ⟨S256x256x256, .f32⟩
  | 126 => ⟨S_, .f32⟩
  | 127 => ⟨S256x256x256, .f32⟩
  | _ => ⟨S256x256, .i32⟩

abbrev hbmTy0_1 (i : Nat) : BufTy := match i % 128 with
  | 0 => ⟨S256x256x256, .f32⟩
  | 1 => ⟨S1x24x256x256, .f32⟩
  | 2 => ⟨S24x256x256, .f32⟩
  | 3 => ⟨S1x256x256, .f32⟩
  | 4 => ⟨S256x256, .f32⟩
  | 5 => ⟨S256x256x256, .f32⟩
  | 6 => ⟨S256x255x256, .f32⟩
  | 7 => ⟨S1x256x256, .f32⟩
  | 8 => ⟨S256x256, .f32⟩
  | 9 => ⟨S256x255x256, .f32⟩
  | 10 => ⟨S_, .i32⟩
  | 11 => ⟨S1, .i32⟩
  | 12 => ⟨S256x256x256, .f32⟩
  | 13 => ⟨S_, .f32⟩
  | 14 => ⟨S1, .f32⟩
  | 15 => ⟨S_, .f32⟩
  | 16 => ⟨S255, .f32⟩
  | 17 => ⟨S256, .f32⟩
  | 18 => ⟨S1x256x1, .f32⟩
  | 19 => ⟨S256x256x256, .f32⟩
  | 20 => ⟨S256x256x256, .f32⟩
  | 21 => ⟨S_, .f32⟩
  | 22 => ⟨S256x256x256, .f32⟩
  | 23 => ⟨S256x256x256, .f32⟩
  | 24 => ⟨S1x24x256x256, .f32⟩
  | 25 => ⟨S24x256x256, .f32⟩
  | 26 => ⟨S1x256x256, .f32⟩
  | 27 => ⟨S256x256, .f32⟩
  | 28 => ⟨S256x256x256, .f32⟩
  | 29 => ⟨S256x255x256, .f32⟩
  | 30 => ⟨S1x256x256, .f32⟩
  | 31 => ⟨S256x256, .f32⟩
  | 32 => ⟨S256x255x256, .f32⟩
  | 33 => ⟨S_, .i32⟩
  | 34 => ⟨S1, .i32⟩
  | 35 => ⟨S256x256x256, .f32⟩
  | 36 => ⟨S_, .f32⟩
  | 37 => ⟨S1, .f32⟩
  | 38 => ⟨S_, .f32⟩
  | 39 => ⟨S255, .f32⟩
  | 40 => ⟨S256, .f32⟩
  | 41 => ⟨S1x256x1, .f32⟩
  | 42 => ⟨S256x256x256, .f32⟩
  | 43 => ⟨S256x256x256, .f32⟩
  | 44 => ⟨S_, .f32⟩
  | 45 => ⟨S256x256x256, .f32⟩
  | 46 => ⟨S256x256x256, .f32⟩
  | 47 => ⟨S1x24x256x256, .f32⟩
  | 48 => ⟨S24x256x256, .f32⟩
  | 49 => ⟨S1x256x256, .f32⟩
  | 50 => ⟨S256x256, .f32⟩
  | 51 => ⟨S256x256x256, .f32⟩
  | 52 => ⟨S256x255x256, .f32⟩
  | 53 => ⟨S1x256x256, .f32⟩
  | 54 => ⟨S256x256, .f32⟩
  | 55 => ⟨S256x255x256, .f32⟩
  | 56 => ⟨S_, .i32⟩
  | 57 => ⟨S1, .i32⟩
  | 58 => ⟨S256x256x256, .f32⟩
  | 59 => ⟨S_, .f32⟩
  | 60 => ⟨S1, .f32⟩
  | 61 => ⟨S_, .f32⟩
  | 62 => ⟨S255, .f32⟩
  | 63 => ⟨S256, .f32⟩
  | 64 => ⟨S1x256x1, .f32⟩
  | 65 => ⟨S256x256x256, .f32⟩
  | 66 => ⟨S256x256x256, .f32⟩
  | 67 => ⟨S_, .f32⟩
  | 68 => ⟨S256x256x256, .f32⟩
  | 69 => ⟨S256x256x256, .f32⟩
  | 70 => ⟨S1x24x256x256, .f32⟩
  | 71 => ⟨S24x256x256, .f32⟩
  | 72 => ⟨S1x256x256, .f32⟩
  | 73 => ⟨S256x256, .f32⟩
  | 74 => ⟨S256x256x256, .f32⟩
  | 75 => ⟨S256x255x256, .f32⟩
  | 76 => ⟨S1x256x256, .f32⟩
  | 77 => ⟨S256x256, .f32⟩
  | 78 => ⟨S256x255x256, .f32⟩
  | 79 => ⟨S_, .i32⟩
  | 80 => ⟨S1, .i32⟩
  | 81 => ⟨S256x256x256, .f32⟩
  | 82 => ⟨S_, .f32⟩
  | 83 => ⟨S1, .f32⟩
  | 84 => ⟨S_, .f32⟩
  | 85 => ⟨S255, .f32⟩
  | 86 => ⟨S256, .f32⟩
  | 87 => ⟨S1x256x1, .f32⟩
  | 88 => ⟨S256x256x256, .f32⟩
  | 89 => ⟨S256x256x256, .f32⟩
  | 90 => ⟨S_, .f32⟩
  | 91 => ⟨S256x256x256, .f32⟩
  | 92 => ⟨S256x256x256, .f32⟩
  | 93 => ⟨S1x24x256x256, .f32⟩
  | 94 => ⟨S24x256x256, .f32⟩
  | 95 => ⟨S1x256x256, .f32⟩
  | 96 => ⟨S256x256, .f32⟩
  | 97 => ⟨S256x256x256, .f32⟩
  | 98 => ⟨S256x255x256, .f32⟩
  | 99 => ⟨S1x256x256, .f32⟩
  | 100 => ⟨S256x256, .f32⟩
  | 101 => ⟨S256x255x256, .f32⟩
  | 102 => ⟨S_, .i32⟩
  | 103 => ⟨S1, .i32⟩
  | 104 => ⟨S256x256x256, .f32⟩
  | 105 => ⟨S_, .f32⟩
  | 106 => ⟨S1, .f32⟩
  | 107 => ⟨S_, .f32⟩
  | 108 => ⟨S255, .f32⟩
  | 109 => ⟨S256, .f32⟩
  | 110 => ⟨S1x256x1, .f32⟩
  | 111 => ⟨S256x256x256, .f32⟩
  | 112 => ⟨S256x256x256, .f32⟩
  | 113 => ⟨S_, .f32⟩
  | 114 => ⟨S256x256x256, .f32⟩
  | 115 => ⟨S256x256x256, .f32⟩
  | 116 => ⟨S256x1x256, .f32⟩
  | 117 => ⟨S256x256, .f32⟩
  | 118 => ⟨S256x32000, .f32⟩
  | 119 => ⟨S256x32000, .f32⟩
  | 120 => ⟨S1x32000, .f32⟩
  | 121 => ⟨S256x32000, .f32⟩
  | 122 => ⟨S256x32000, .f32⟩
  | _ => ⟨S256x256, .i32⟩

abbrev hbmTy (i : Nat) : BufTy := match i / 128 with
  | 0 => hbmTy0_0 i
  | 1 => hbmTy0_1 i
  | _ => ⟨S256x256, .i32⟩

abbrev bufTy : (tb : Table) → Fin (tcTables nBuf tb) → BufTy
  | .hbm, ⟨i, _⟩ => hbmTy i
  | _, _ => ⟨S256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call1_cst : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call2_cst : Ref sig .tc := ⟨.hbm, 80, rfl⟩
abbrev main_call2_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_9 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call3_cst : Ref sig .tc := ⟨.hbm, 103, rfl⟩
abbrev main_call3_v0 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_12 : Ref sig .tc := ⟨.hbm, 115, rfl⟩
abbrev main_v88 : Ref sig .tc := ⟨.hbm, 116, rfl⟩
abbrev main_v89 : Ref sig .tc := ⟨.hbm, 117, rfl⟩
abbrev main_cst_13 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call4_cst : Ref sig .tc := ⟨.hbm, 126, rfl⟩
abbrev main_call4_v0 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_c_15 : Ref sig .tc := ⟨.hbm, 138, rfl⟩
abbrev main_v106 : Ref sig .tc := ⟨.hbm, 139, rfl⟩
abbrev main_v107 : Ref sig .tc := ⟨.hbm, 140, rfl⟩
abbrev main_cst_16 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_call5_cst : Ref sig .tc := ⟨.hbm, 149, rfl⟩
abbrev main_call5_v0 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_18 : Ref sig .tc := ⟨.hbm, 161, rfl⟩
abbrev main_v124 : Ref sig .tc := ⟨.hbm, 162, rfl⟩
abbrev main_v125 : Ref sig .tc := ⟨.hbm, 163, rfl⟩
abbrev main_cst_19 : Ref sig .tc := ⟨.hbm, 164, rfl⟩
abbrev main_v126 : Ref sig .tc := ⟨.hbm, 165, rfl⟩
abbrev main_cst_20 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_call6_cst : Ref sig .tc := ⟨.hbm, 172, rfl⟩
abbrev main_call6_v0 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_c_21 : Ref sig .tc := ⟨.hbm, 184, rfl⟩
abbrev main_v142 : Ref sig .tc := ⟨.hbm, 185, rfl⟩
abbrev main_v143 : Ref sig .tc := ⟨.hbm, 186, rfl⟩
abbrev main_cst_22 : Ref sig .tc := ⟨.hbm, 187, rfl⟩
abbrev main_v144 : Ref sig .tc := ⟨.hbm, 188, rfl⟩
abbrev main_cst_23 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_call7_cst : Ref sig .tc := ⟨.hbm, 195, rfl⟩
abbrev main_call7_v0 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_c_24 : Ref sig .tc := ⟨.hbm, 207, rfl⟩
abbrev main_v160 : Ref sig .tc := ⟨.hbm, 208, rfl⟩
abbrev main_v161 : Ref sig .tc := ⟨.hbm, 209, rfl⟩
abbrev main_cst_25 : Ref sig .tc := ⟨.hbm, 210, rfl⟩
abbrev main_v162 : Ref sig .tc := ⟨.hbm, 211, rfl⟩
abbrev main_cst_26 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_call8_cst : Ref sig .tc := ⟨.hbm, 218, rfl⟩
abbrev main_call8_v0 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_c_27 : Ref sig .tc := ⟨.hbm, 230, rfl⟩
abbrev main_v178 : Ref sig .tc := ⟨.hbm, 231, rfl⟩
abbrev main_v179 : Ref sig .tc := ⟨.hbm, 232, rfl⟩
abbrev main_cst_28 : Ref sig .tc := ⟨.hbm, 233, rfl⟩
abbrev main_v180 : Ref sig .tc := ⟨.hbm, 234, rfl⟩
abbrev main_cst_29 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_call9_cst : Ref sig .tc := ⟨.hbm, 241, rfl⟩
abbrev main_call9_v0 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  slices_S10x24x256x256_S1x24x256x256_0_0_0_0 : S10x24x256x256.Slices ![0, 0, 0, 0] S1x24x256x256
  shapeCasts_S1x24x256x256_S24x256x256 : S1x24x256x256.ShapeCasts S24x256x256
  slices_S24x256x256_S1x256x256_3_0_0 : S24x256x256.Slices ![3, 0, 0] S1x256x256
  shapeCasts_S1x256x256_S256x256 : S1x256x256.ShapeCasts S256x256
  slices_S256x256x256_S256x255x256_0_0_0 : S256x256x256.Slices ![0, 0, 0] S256x255x256
  slices_S24x256x256_S1x256x256_1_0_0 : S24x256x256.Slices ![1, 0, 0] S1x256x256
  bcast_S_S1 : S_.BroadcastsInDim S1 (![] : Fin 0 → Fin S1.rank)
  bcast_S_S255 : S_.BroadcastsInDim S255 (![] : Fin 0 → Fin S255.rank)
  concatenates_S1_S255_S256_d0 : Shape.Concatenates [S1, S255] S256 0
  bcast_S256_S1x256x1_1 : S256.BroadcastsInDim S1x256x1 (![1] : Fin 1 → Fin S1x256x1.rank)
  bcast_S1x256x1_S256x256x256_0_1_2 : S1x256x1.BroadcastsInDim S256x256x256 (![0, 1, 2] : Fin 3 → Fin S256x256x256.rank)
  bcast_S_S256x256x256 : S_.BroadcastsInDim S256x256x256 (![] : Fin 0 → Fin S256x256x256.rank)
  slices_S10x24x256x256_S1x24x256x256_1_0_0_0 : S10x24x256x256.Slices ![1, 0, 0, 0] S1x24x256x256
  slices_S10x24x256x256_S1x24x256x256_2_0_0_0 : S10x24x256x256.Slices ![2, 0, 0, 0] S1x24x256x256
  slices_S10x24x256x256_S1x24x256x256_3_0_0_0 : S10x24x256x256.Slices ![3, 0, 0, 0] S1x24x256x256
  slices_S10x24x256x256_S1x24x256x256_4_0_0_0 : S10x24x256x256.Slices ![4, 0, 0, 0] S1x24x256x256
  slices_S10x24x256x256_S1x24x256x256_5_0_0_0 : S10x24x256x256.Slices ![5, 0, 0, 0] S1x24x256x256
  slices_S10x24x256x256_S1x24x256x256_6_0_0_0 : S10x24x256x256.Slices ![6, 0, 0, 0] S1x24x256x256
  slices_S10x24x256x256_S1x24x256x256_7_0_0_0 : S10x24x256x256.Slices ![7, 0, 0, 0] S1x24x256x256
  slices_S10x24x256x256_S1x24x256x256_8_0_0_0 : S10x24x256x256.Slices ![8, 0, 0, 0] S1x24x256x256
  slices_S10x24x256x256_S1x24x256x256_9_0_0_0 : S10x24x256x256.Slices ![9, 0, 0, 0] S1x24x256x256
  slices_S256x256x256_S256x1x256_0_255_0 : S256x256x256.Slices ![0, 255, 0] S256x1x256
  shapeCasts_S256x1x256_S256x256 : S256x1x256.ShapeCasts S256x256
  transposes_S32000x256_S256x32000_1_0 : S32000x256.Transposes [1, 0] S256x32000
  bcast_S32000_S1x32000_1 : S32000.BroadcastsInDim S1x32000 (![1] : Fin 1 → Fin S1x32000.rank)
  bcast_S1x32000_S256x32000_0_1 : S1x32000.BroadcastsInDim S256x32000 (![0, 1] : Fin 2 → Fin S256x32000.rank)
  gather_S32000x256_S256x256x1_S256x256x256_2_0_n_n_0_2_1256_wf : GatherDims.WF S32000x256 S256x256x1 S256x256x256 [2] [0] [] [0] [] 2 ![1, 256]
  dot_S256x256x256_S256x256_S256x256x256_2_0_01_1_n_n_wf : DotDims.WF S256x256x256 S256x256 S256x256x256 [2] [0] [0, 1] [1] [] []
  dot_S256x255x256_S256x256_S256x255x256_2_0_01_1_n_n_wf : DotDims.WF S256x255x256 S256x256 S256x255x256 [2] [0] [0, 1] [1] [] []
  scatter_S256x256x256_S1_S256x255x256_012_n_1_0_wf : ScatterDims.WF S256x256x256 S1 S256x255x256 [0, 1, 2] [] [1] 0
  dot_S256x256_S256x32000_S256x32000_1_0_0_1_n_n_wf : DotDims.WF S256x256 S256x32000 S256x32000 [1] [0] [0] [1] [] []

variable [Facts₀]

def gather_S32000x256_S256x256x1_S256x256x256_2_0_n_n_0_2_1256 : GatherDims S32000x256 S256x256x1 S256x256x256 where
  offsetDims := [2]
  collapsedSliceDims := [0]
  operandBatchingDims := []
  startIndicesBatchingDims := []
  startIndexMap := [0]
  indexVectorDim := 2
  sliceSizes := ![1, 256]
  wf := gather_S32000x256_S256x256x1_S256x256x256_2_0_n_n_0_2_1256_wf
def dot_S256x256x256_S256x256_S256x256x256_2_0_01_1_n_n : DotDims S256x256x256 S256x256 S256x256x256 where
  lhsContracting := [2]
  rhsContracting := [0]
  lhsNonContracting := [0, 1]
  rhsNonContracting := [1]
  lhsBatch := []
  rhsBatch := []
  wf := dot_S256x256x256_S256x256_S256x256x256_2_0_01_1_n_n_wf
def dot_S256x255x256_S256x256_S256x255x256_2_0_01_1_n_n : DotDims S256x255x256 S256x256 S256x255x256 where
  lhsContracting := [2]
  rhsContracting := [0]
  lhsNonContracting := [0, 1]
  rhsNonContracting := [1]
  lhsBatch := []
  rhsBatch := []
  wf := dot_S256x255x256_S256x256_S256x255x256_2_0_01_1_n_n_wf
def scatter_S256x256x256_S1_S256x255x256_012_n_1_0 : ScatterDims S256x256x256 S1 S256x255x256 where
  updateWindowDims := [0, 1, 2]
  insertedWindowDims := []
  scatterDimsToOperandDims := [1]
  indexVectorDim := 0
  wf := scatter_S256x256x256_S1_S256x255x256_012_n_1_0_wf
def dot_S256x256_S256x32000_S256x32000_1_0_0_1_n_n : DotDims S256x256 S256x32000 S256x32000 where
  lhsContracting := [1]
  rhsContracting := [0]
  lhsNonContracting := [0]
  rhsNonContracting := [1]
  lhsBatch := []
  rhsBatch := []
  wf := dot_S256x256_S256x32000_S256x32000_1_0_0_1_n_n_wf

class Facts : Prop extends Facts₀ where

variable [Facts]
-- ==== Proof.WordLevel.lean ====
import proofs.«415765_j59210419143216_1_alg».proof.Proof.Gen.Kernel
import proofs.«415765_j59210419143216_1_alg».proof.Proof.Gen.KernelIdeal

noncomputable section

namespace Cert.Kernel

open Idealize.ShloMosaic Idealize.ShloMosaic.TcCoe Idealize.SL.Sem

variable {F : FTy → Type} [FloatOps F]

/-- the ideal pass rewrote nothing: each kernel body of the word-level program is the idealized program's, statement for statement -/
theorem defs₀_eq : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl
  | 1, (t, s) => rfl

theorem defs_eq : Cert.Kernel.defs (F := F) = Cert.KernelIdeal.defs (F := F) :=
  congrArg (Pipeline.defs _) defs₀_eq

end Cert.Kernel

end
-- ==== Proof.KI.Common.lean ====
import proofs.«415765_j59210419143216_1_alg».proof.Proof.Gen.KernelIdeal.Launch
import proofs.«415765_j59210419143216_1_alg».proof.Proof.Gen.KernelIdeal.Skeleton
import proofs.«415765_j59210419143216_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

abbrev ms0_0 (t : Fin cfg0.N) : Memref sig .tc .vmem S8x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)

abbrev scM0_0 : Memref sig .tc .vmem S8x256x256 .f32 := Memref.whole cc0_scratch0
abbrev VS0_0 : View sig .tc .vmem S8x256x256 .f32 := scM0_0.view

abbrev VO0_3 : View sig .tc .vmem S8x256 .f32 := (Memref.whole cc0_stg3_0 : Memref sig .tc .vmem S8x256 .f32).view

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3200 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x3200 .f32 := win1_3.stage (cfg1.slots t 3)
abbrev hs1_3 (t : Fin cfg1.N) : (ms1_3 t).IsWhole := hstage1_3 ((cfg1.slots t 3).cast nbuf1_3)

theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, owns_whole]; try rfl

end Cert.KernelIdeal.Fr

end
-- ==== Proof.KI.Run0A.lean ====
import proofs.«415765_j59210419143216_1_alg».proof.Proof.KI.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun0_A (c : Dev nD) (i : grid0.Coords) (arg2 : Memref sig .tc .vmem S8x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S8x256 .f32) (harg5 : arg5.IsWhole) (arg6 : Memref sig .tc .vmem S8x256x256 .f32) (harg6 : arg6.IsWhole) (hc0 : cond0_0 i) (hc1 : ¬cond0_1 i)
    (x0 : Vec F S8x256x256 .f32) (x1 : Vec F S1x256x256 .f32) (x2 : Vec F S1x256x256 .f32) :
    { LS0 : List (View.Piece (Elt F) S8x256x256 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rgcn_kernel i arg2 harg2 arg3 harg3 arg4 harg4 arg5 harg5 arg6 harg6) K } := by
  refine ⟨?_, fun xi3 E K => ?run⟩
  case run =>
    simp only [cc0__rgcn_kernel_eq_skeleton]; unfold cc0__rgcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.Run0B.lean ====
import proofs.«415765_j59210419143216_1_alg».proof.Proof.KI.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun0_B (c : Dev nD) (i : grid0.Coords) (arg2 : Memref sig .tc .vmem S8x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S8x256 .f32) (harg5 : arg5.IsWhole) (arg6 : Memref sig .tc .vmem S8x256x256 .f32) (harg6 : arg6.IsWhole) (hc0 : ¬cond0_0 i) (hc1 : ¬cond0_1 i)
    (x0 : Vec F S8x256x256 .f32) (x1 : Vec F S1x256x256 .f32) (x2 : Vec F S1x256x256 .f32) (xs0 : Vec F S8x256x256 .f32) :
    { LS0 : List (View.Piece (Elt F) S8x256x256 .f32) //
      ∀ (xi3 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__rgcn_kernel i arg2 harg2 arg3 harg3 arg4 harg4 arg5 harg5 arg6 harg6) K } := by
  refine ⟨?_, fun xi3 E K => ?run⟩
  case run =>
    simp only [cc0__rgcn_kernel_eq_skeleton]; unfold cc0__rgcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.Run0C.lean ====
import proofs.«415765_j59210419143216_1_alg».proof.Proof.KI.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun0_C (c : Dev nD) (i : grid0.Coords) (arg2 : Memref sig .tc .vmem S8x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S8x256 .f32) (harg5 : arg5.IsWhole) (arg6 : Memref sig .tc .vmem S8x256x256 .f32) (harg6 : arg6.IsWhole) (hc0 : ¬cond0_0 i) (hc1 : cond0_1 i)
    (x0 : Vec F S8x256x256 .f32) (x1 : Vec F S1x256x256 .f32) (x2 : Vec F S1x256x256 .f32) (xs0 : Vec F S8x256x256 .f32) :
    Σ' (L3 : List (View.Piece (Elt F) S8x256 .f32)), { LS0 : List (View.Piece (Elt F) S8x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__rgcn_kernel i arg2 harg2 arg3 harg3 arg4 harg4 arg5 harg5 arg6 harg6) K } := by
  refine ⟨?_, ?_, fun E K => ?run⟩
  case run =>
    simp only [cc0__rgcn_kernel_eq_skeleton]; unfold cc0__rgcn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Region0.lean ====
import proofs.«415765_j59210419143216_1_alg».proof.Proof.KI.Run0A
import proofs.«415765_j59210419143216_1_alg».proof.Proof.KI.Run0B
import proofs.«415765_j59210419143216_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA0_eq' (c : Dev nD) :
    (Pipeline.ΦA spec0 c : sProp 𝕄) = iprop(iprop((∃ d, owns (c : Thread nD τ) scM0_0 fullShare d) ∗ restS0 c) ∗ (∃ r, prngReg c r)) :=
  PhiA0_eq c

section Body

variable (c : Dev nD) (i : grid0.Coords) (arg2 : Memref sig .tc .vmem S8x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S8x256 .f32) (harg5 : arg5.IsWhole) (arg6 : Memref sig .tc .vmem S8x256x256 .f32) (harg6 : arg6.IsWhole)

theorem scover0_A (hc0 : cond0_0 i) (hc1 : ¬cond0_1 i) (x0 : Vec F S8x256x256 .f32) (x1 : Vec F S1x256x256 .f32) (x2 : Vec F S1x256x256 .f32) (y : S8x256x256.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S8x256x256.size (by sl_kernel_rfl) y

def sout0_A (hc0 : cond0_0 i) (hc1 : ¬cond0_1 i) (x0 : Vec F S8x256x256 .f32) (x1 : Vec F S1x256x256 .f32) (x2 : Vec F S1x256x256 .f32) : Vec F S8x256x256 .f32 :=
  VS0_0.read (Elt F) (VS0_0.writes (Elt F) VS0_0.junk (kernelRun0_A c i arg2 harg2 arg3 harg3 arg4 harg4 arg5 harg5 arg6 harg6 hc0 hc1 x0 x1 x2).1)

theorem scover0_B (hc0 : ¬cond0_0 i) (hc1 : ¬cond0_1 i) (x0 : Vec F S8x256x256 .f32) (x1 : Vec F S1x256x256 .f32) (x2 : Vec F S1x256x256 .f32) (xs0 : Vec F S8x256x256 .f32) (y : S8x256x256.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S8x256x256.size (by sl_kernel_rfl) y

def sout0_B (hc0 : ¬cond0_0 i) (hc1 : ¬cond0_1 i) (x0 : Vec F S8x256x256 .f32) (x1 : Vec F S1x256x256 .f32) (x2 : Vec F S1x256x256 .f32) (xs0 : Vec F S8x256x256 .f32) : Vec F S8x256x256 .f32 :=
  VS0_0.read (Elt F) (VS0_0.writes (Elt F) VS0_0.junk (kernelRun0_B c i arg2 harg2 arg3 harg3 arg4 harg4 arg5 harg5 arg6 harg6 hc0 hc1 x0 x1 x2 xs0).1)

theorem cover0_C_3 (hc0 : ¬cond0_0 i) (hc1 : cond0_1 i) (x0 : Vec F S8x256x256 .f32) (x1 : Vec F S1x256x256 .f32) (x2 : Vec F S1x256x256 .f32) (xs0 : Vec F S8x256x256 .f32) (y : S8x256.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S8x256.size (by sl_kernel_rfl) y

def out0_C_3 (hc0 : ¬cond0_0 i) (hc1 : cond0_1 i) (x0 : Vec F S8x256x256 .f32) (x1 : Vec F S1x256x256 .f32) (x2 : Vec F S1x256x256 .f32) (xs0 : Vec F S8x256x256 .f32) : Vec F S8x256 .f32 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (hc0 : ¬cond0_0 i) (hc1 : cond0_1 i) (x0 : Vec F S8x256x256 .f32) (x1 : Vec F S1x256x256 .f32) (x2 : Vec F S1x256x256 .f32) (xs0 : Vec F S8x256x256 .f32) (y : S8x256x256.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S8x256x256.size (by sl_kernel_rfl) y

def sout0_C (hc0 : ¬cond0_0 i) (hc1 : cond0_1 i) (x0 : Vec F S8x256x256 .f32) (x1 : Vec F S1x256x256 .f32) (x2 : Vec F S1x256x256 .f32) (xs0 : Vec F S8x256x256 .f32) : Vec F S8x256x256 .f32 :=
  VS0_0.read (Elt F) (VS0_0.writes (Elt F) VS0_0.junk (kernelRun0_C c i arg2 harg2 arg3 harg3 arg4 harg4 arg5 harg5 arg6 harg6 hc0 hc1 x0 x1 x2 xs0).2.1)

end Body

def outIdle : Vec F S8x256 .f32 := VO0_3.read (Elt F) (VO0_3.writes (Elt F) VO0_3.junk [])

section AtV

variable (V : (c : Dev nD) → (b : Ref sig .tc) → Buf (Elt F) ((c : Thread nD τ).loc b))

-- what the kept state and the output block hold after each point, by recursion on the point: reset at layer 0, one layer applied at every layer, the last position written out at layer 9
def outsAt0 (c : Dev nD) : (n : ℕ) → n < cfg0.N → Vec F S8x256 .f32 × Vec F S8x256x256 .f32
  | 0, hn => (outIdle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 10 = 0 then
      (outIdle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 10 = 9 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (outIdle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 10 = 0) (h1 : ¬t.val % 10 = 9) :
    outsAt0 V c t.val t.isLt = (outIdle, sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 10 = 0) (h1 : ¬t.val % 10 = 9) :
    outsAt0 V c t.val t.isLt = (outIdle, sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

-- the invariant between points: the kept state is owned at exactly those contents
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 320 := lt_of_lt_of_eq t.isLt (show cfg0.N = 320 from N_0)
  by_cases h0 : t.val % 10 = 0
  · have h1 : ¬t.val % 10 = 9 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq']
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 10 = 9
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 320 := N_0; omega
  rw [show (dat0 V c).Φ (Fin.last cfg0.N) = PhiS V c (Fin.last cfg0.N).val (Nat.le_of_lt_succ (Fin.last cfg0.N).isLt) from rfl, PhiS_pos V c _ _ hne, PhiA0_eq']
  iintro ⟨⟨HS0, HR⟩, Hg⟩
  isplitl [HS0 HR]
  · isplitl [HS0]
    · iexists _; iexact HS0
    iexact HR
  iexact Hg

end AtV

end Cert.KernelIdeal.Fr

end
-- ==== Proof.KI.Region1.lean ====
import proofs.«415765_j59210419143216_1_alg».proof.Proof.KI.Common

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun1 (c : Dev nD) (i : grid1.Coords) (arg1 : Memref sig .tc .vmem S256x256 .f32) (harg1 : arg1.IsWhole) (arg2 : Memref sig .tc .vmem S3200x256 .f32) (harg2 : arg2.IsWhole) (arg3 : Memref sig .tc .vmem S1x3200 .f32) (harg3 : arg3.IsWhole) (arg4 : Memref sig .tc .vmem S256x3200 .f32) (harg4 : arg4.IsWhole)
    (x0 : Vec F S256x256 .f32) (x1 : Vec F S3200x256 .f32) (x2 : Vec F S1x3200 .f32) :
    { L3 : List (View.Piece (Elt F) S256x3200 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1__outlin_kernel i arg1 harg1 arg2 harg2 arg3 harg3 arg4 harg4) K } := by
  refine ⟨?_, fun E K => ?run⟩
  case run =>
    simp only [cc1__outlin_kernel_eq_skeleton]; unfold cc1__outlin_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

abbrev VO1_3 : View sig .tc .vmem S256x3200 .f32 := (Memref.whole cc1_stg3_0 : Memref sig .tc .vmem S256x3200 .f32).view

theorem cover1_3 (c : Dev nD) (i : grid1.Coords) (arg1 : Memref sig .tc .vmem S256x256 .f32) (harg1 : arg1.IsWhole) (arg2 : Memref sig .tc .vmem S3200x256 .f32) (harg2 : arg2.IsWhole) (arg3 : Memref sig .tc .vmem S1x3200 .f32) (harg3 : arg3.IsWhole) (arg4 : Memref sig .tc .vmem S256x3200 .f32) (harg4 : arg4.IsWhole)
    (x0 : Vec F S256x256 .f32) (x1 : Vec F S3200x256 .f32) (x2 : Vec F S1x3200 .f32) (y : S256x3200.Idx) :
    ∃ pc ∈ (kernelRun1 c i arg1 harg1 arg2 harg2 arg3 harg3 arg4 harg4 x0 x1 x2).1, y ∈ pc.1.set :=
  View.cover_of_tiledL (kernelRun1 c i arg1 harg1 arg2 harg2 arg3 harg3 arg4 harg4 x0 x1 x2).1 S256x3200.size (by sl_kernel_rfl) y

def out1_3 (c : Dev nD) (i : grid1.Coords) (arg1 : Memref sig .tc .vmem S256x256 .f32) (harg1 : arg1.IsWhole) (arg2 : Memref sig .tc .vmem S3200x256 .f32) (harg2 : arg2.IsWhole) (arg3 : Memref sig .tc .vmem S1x3200 .f32) (harg3 : arg3.IsWhole) (arg4 : Memref sig .tc .vmem S256x3200 .f32) (harg4 : arg4.IsWhole)
    (x0 : Vec F S256x256 .f32) (x1 : Vec F S3200x256 .f32) (x2 : Vec F S1x3200 .f32) : Vec F S256x3200 .f32 :=
  VO1_3.read (Elt F) (VO1_3.writes (Elt F) VO1_3.junk (kernelRun1 c i arg1 harg1 arg2 harg2 arg3 harg3 arg4 harg4 x0 x1 x2).1)

section AtV

variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 c (grid1.coords t) (ms1_0 t) (hs1_0 t) (ms1_1 t) (hs1_1 t) (ms1_2 t) (hs1_2 t) (ms1_3 t) (hs1_3 t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  unfold out1_3; (try dsimp only)
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_3 c _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end AtV

end Cert.KernelIdeal.Fr

end
-- ==== Proof.KI.RunMain.lean ====
import proofs.«415765_j59210419143216_1_alg».proof.Proof.KI.Region0
import proofs.«415765_j59210419143216_1_alg».proof.Proof.KI.Region1
import proofs.«415765_j59210419143216_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

set_option backward.isDefEq.respectTransparency.types false in

theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V2 m c) ∗ E 0 c) ⊢ R0.pre c)
    (hpost0 : ∀ c : Dev nD, R0.post c ⊢ iprop(StableHlo.held (c : Thread nD τ) (Pipeline.ucRefs τ sig) (V3 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v7) = outs 5 main_v7 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, .rfl, hpre0 c, hpost0 c, hpre1 c, (hpost1 c).trans (sep_mono .rfl (hE2 c))⟩)
    (hinit := ?_) (QY := fun c s => s.mem ((c.tc : Thread nD τ).loc main_v7) = outs 5 main_v7 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_v7) (Finset.mem_filter.mpr ⟨StableHlo.devRef_mem_tcRefs main_v7, by decide⟩)).trans (by simp only [V5, Function.update_self]),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c)⟩
    · iexact HSI

variable (m : (ℓ : Loc nD τ sig) → Buf (Elt F) ℓ) (ρ : Dev nD → PrngReg)

abbrev E0 : (c : Dev nD) → (b : Ref sig .tc) → Buf (Elt F) ((c : Thread nD τ).loc b) := fun c b => V2 m c b

def res0 (c : Dev nD) : Buf (Elt F) ((c : Thread nD τ).loc main_v5) := (dat0 (E0 m) c).arrAt 3 cfg0.N

def outs0 : Outs (F := F) := fun _ => Function.update (fun (r : Ref sig .tc) (c : Dev nD) => m ((c : Thread nD τ).loc r)) main_v5 (res0 m)

abbrev E1 : (c : Dev nD) → (b : Ref sig .tc) → Buf (Elt F) ((c : Thread nD τ).loc b) := fun c b => V4 m (outs0 m) c b

def res1 (c : Dev nD) : Buf (Elt F) ((c : Thread nD τ).loc main_v7) := (dat1 (E1 m) c).arrAt 3 cfg1.N

def outs1 : Outs (F := F) := fun _ => Function.update (Function.update (fun (r : Ref sig .tc) (c : Dev nD) => m ((c : Thread nD τ).loc r)) main_v5 (res0 m)) main_v7 (res1 m)

theorem outs0_v5 (n : ℕ) (c : Dev nD) : outs0 m n main_v5 c = res0 m c := by
  simp only [outs0, Function.update_self]
theorem outs1_v5 (n : ℕ) (c : Dev nD) : outs1 m n main_v5 c = res0 m c := by
  simp only [outs1, Function.update_of_ne (show (main_v5 : Ref sig .tc) ≠ main_v7 by decide), Function.update_self]
theorem outs1_v7 (n : ℕ) (c : Dev nD) : outs1 m n main_v7 c = res1 m c := by
  simp only [outs1, Function.update_self]

theorem V3_outs (c : Dev nD) : V3 m (outs1 m) c = V3 m (outs0 m) c := by
  show Function.update (V2 m c) main_v5 (outs1 m 3 main_v5 c) = Function.update (V2 m c) main_v5 (outs0 m 3 main_v5 c)
  rw [outs1_v5, outs0_v5]
theorem V4_outs (c : Dev nD) : V4 m (outs1 m) c = V4 m (outs0 m) c := by
  show StableHlo.after hostOps1 (V3 m (outs1 m) c) = StableHlo.after hostOps1 (V3 m (outs0 m) c)
  rw [V3_outs]

def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = (fun b => V3 m (outs1 m) c b) (Pipeline.arrRef spec0 w) := by
  show (dat0 (E0 m) c).arrAt w cfg0.N = V3 m (outs1 m) c (Pipeline.arrRef spec0 w)
  match w with
  | ⟨0, _⟩ => exact ((dat0 (E0 m) c).arrAt_in 0 rfl _).trans ((A_eq0 (E0 m) c 0).trans (V3_of m (outs1 m) c main_v0 (by decide)).symm)
  | ⟨1, _⟩ => exact ((dat0 (E0 m) c).arrAt_in 1 rfl _).trans ((A_eq0 (E0 m) c 1).trans (V3_of m (outs1 m) c main_v2 (by decide)).symm)
  | ⟨2, _⟩ => exact ((dat0 (E0 m) c).arrAt_in 2 rfl _).trans ((A_eq0 (E0 m) c 2).trans (V3_of m (outs1 m) c main_v4 (by decide)).symm)
  | ⟨3, _⟩ => exact ((outs1_v5 m 3 c).symm.trans (by simp only [V3, Function.update_self]))
theorem hrest0 (c : Dev nD) : ∀ b, b ∉ Finset.univ.image (Pipeline.arrRef spec0) → (fun b => V3 m (outs1 m) c b) b = E0 m c b := fun b hb =>
  V3_of m (outs1 m) c b (fun hmem => hb (Finset.mem_image.mpr ⟨3, Finset.mem_univ _, (List.mem_singleton.mp hmem).symm⟩))

theorem hF1 (c : Dev nD) (w : Fin cfg1.W) : (pdats m 1 c).arrAt w cfg1.N = (fun b => V5 m (outs1 m) c b) (Pipeline.arrRef spec1 w) := by
  show (dat1 (E1 m) c).arrAt w cfg1.N = V5 m (outs1 m) c (Pipeline.arrRef spec1 w)
  match w with
  | ⟨0, _⟩ => exact ((dat1 (E1 m) c).arrAt_in 0 rfl _).trans ((A_eq1 (E1 m) c 0).trans (((V5_of m (outs1 m) c main_v5 (by decide)).trans (congrFun (V4_outs m c) _)).symm))
  | ⟨1, _⟩ => exact ((dat1 (E1 m) c).arrAt_in 1 rfl _).trans ((A_eq1 (E1 m) c 1).trans (((V5_of m (outs1 m) c main_arg3 (by decide)).trans (congrFun (V4_outs m c) _)).symm))
  | ⟨2, _⟩ => exact ((dat1 (E1 m) c).arrAt_in 2 rfl _).trans ((A_eq1 (E1 m) c 2).trans (((V5_of m (outs1 m) c main_v6 (by decide)).trans (congrFun (V4_outs m c) _)).symm))
  | ⟨3, _⟩ => exact ((outs1_v7 m 5 c).symm.trans (by simp only [V5, Function.update_self]))
theorem hrest1 (c : Dev nD) : ∀ b, b ∉ Finset.univ.image (Pipeline.arrRef spec1) → (fun b => V5 m (outs1 m) c b) b = E1 m c b := fun b hb =>
  (V5_of m (outs1 m) c b (fun hmem => hb (Finset.mem_image.mpr ⟨3, Finset.mem_univ _, (List.mem_singleton.mp hmem).symm⟩))).trans (congrFun (V4_outs m c) _)

set_option backward.isDefEq.respectTransparency.types false in

def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m (outs1 m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (E0 m) c
    unfold Pipeline.ΦA at h
    show (dat0 (E0 m) c).Φ (Fin.last cfg0.N) ⊢ _
    iintro Hq
    ihave H := h $$ Hq
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V3 m (outs1 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V4 m (outs0 m) c) ∗ R c)
  post c := iprop(StableHlo.held (c : Thread nD τ) (Pipeline.ucRefs τ sig) (V5 m (outs1 m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V5 m (outs1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

theorem run_main : θ_run defs (onTc (τ := τ) (main (F := F))) ⟨m, fun _ => 0, ρ⟩ (fun r => ∀ c : Dev nD,
      r.2.mem ((c.tc : Thread nD τ).loc main_v7) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := run_cond (F := F) m emb₁ () 𝒱₀ L lv (fun _ _ => rfl) ρ (outs1 m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hc : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ R c := fun c => by
        iintro ⟨-, HO, -, Hp, -⟩
        isplitl [Hp]; · iexists _; iexact Hp
        iexists ∅; iexact HO
      have hm : (bigSep Finset.univ (fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) : sProp 𝕄)
          ⊢ bigSep Finset.univ (fun c : Dev nD => R c) := bigSep_mono fun c _ => hc c
      iintro ⟨H, -⟩
      imodintro
      iapply hm
      iexact H)
    (fun c => by
      iintro ⟨-, HO⟩
      iexact HO)
    (reg0 m) (fun _ => .rfl) (fun _ => .rfl)
    (reg1 m) (fun c => by rw [V4_outs]; exact .rfl) (fun _ => .rfl)
  exact (θ_run defs _ _).mono (fun _ hr c => ⟨((hr c).1).trans (outs1_v7 m 5 c), (hr c).2⟩) h

end Cert.KernelIdeal.Fr

end
-- ==== Proof.KI.Pieces.lean ====
import proofs.«415765_j59210419143216_1_alg».proof.Proof.KI.Region0
import proofs.«415765_j59210419143216_1_alg».proof.Proof.KI.Region1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem offZero3 : (![0, 0, 0] : Fin 3 → Nat) = fun _ => 0 := funext fun a => by fin_cases a <;> rfl

theorem offZero2 : (![0, 0] : Fin 2 → Nat) = fun _ => 0 := funext fun a => by fin_cases a <;> rfl

section Body

variable (c : Dev nD) (i : grid0.Coords) (arg2 : Memref sig .tc .vmem S8x256x256 .f32) (harg2 : arg2.IsWhole) (arg3 : Memref sig .tc .vmem S1x256x256 .f32) (harg3 : arg3.IsWhole) (arg4 : Memref sig .tc .vmem S1x256x256 .f32) (harg4 : arg4.IsWhole) (arg5 : Memref sig .tc .vmem S8x256 .f32) (harg5 : arg5.IsWhole) (arg6 : Memref sig .tc .vmem S8x256x256 .f32) (harg6 : arg6.IsWhole)

theorem sout0_A_eq (hc0 : cond0_0 i) (hc1 : ¬cond0_1 i) (x0 : Vec F S8x256x256 .f32) (x1 : Vec F S1x256x256 .f32) (x2 : Vec F S1x256x256 .f32) :
    sout0_A c i arg2 harg2 arg3 harg3 arg4 harg4 arg5 harg5 arg6 harg6 hc0 hc1 x0 x1 x2 = Gen.k0_pay4 (Gen.k0_pay2 x0) x1 x2 := by
  unfold sout0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S8x256x256) offZero3, View.readCov_unit_zero (S := S8x256x256) _ offZero3]
  simp only [View.readAt_eq_ld, harg2.read_unread, harg3.read_unread, harg4.read_unread, View.ld_unit_zero (S := S8x256x256) offZero3, View.ld_unit_zero (S := S1x256x256) offZero3]

theorem sout0_B_eq (hc0 : ¬cond0_0 i) (hc1 : ¬cond0_1 i) (x0 : Vec F S8x256x256 .f32) (x1 : Vec F S1x256x256 .f32) (x2 : Vec F S1x256x256 .f32) (xs0 : Vec F S8x256x256 .f32) :
    sout0_B c i arg2 harg2 arg3 harg3 arg4 harg4 arg5 harg5 arg6 harg6 hc0 hc1 x0 x1 x2 xs0 = Gen.k0_pay4 xs0 x1 x2 := by
  unfold sout0_B
  rw [View.read_writes_eq_canon _ _ _ (scover0_B c i arg2 harg2 arg3 harg3 arg4 harg4 arg5 harg5 arg6 harg6 hc0 hc1 x0 x1 x2 xs0)]
  unfold kernelRun0_B
  dsimp only
  sl_unfold_words
  rw [View.canon_unit_zero (S := S8x256x256) offZero3]
  simp only [View.readAt_eq_ld, harg6.read_unread, harg3.read_unread, harg4.read_unread, View.ld_unit_zero (S := S8x256x256) offZero3, View.ld_unit_zero (S := S1x256x256) offZero3]

theorem sout0_C_eq (hc0 : ¬cond0_0 i) (hc1 : cond0_1 i) (x0 : Vec F S8x256x256 .f32) (x1 : Vec F S1x256x256 .f32) (x2 : Vec F S1x256x256 .f32) (xs0 : Vec F S8x256x256 .f32) :
    sout0_C c i arg2 harg2 arg3 harg3 arg4 harg4 arg5 harg5 arg6 harg6 hc0 hc1 x0 x1 x2 xs0 = Gen.k0_pay4 xs0 x1 x2 := by
  unfold sout0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero (S := S8x256x256) offZero3]
  simp only [View.readAt_eq_ld, harg6.read_unread, harg3.read_unread, harg4.read_unread, View.ld_unit_zero (S := S8x256x256) offZero3, View.ld_unit_zero (S := S1x256x256) offZero3]

theorem out0_C_3_eq (hc0 : ¬cond0_0 i) (hc1 : cond0_1 i) (x0 : Vec F S8x256x256 .f32) (x1 : Vec F S1x256x256 .f32) (x2 : Vec F S1x256x256 .f32) (xs0 : Vec F S8x256x256 .f32) :
    out0_C_3 c i arg2 harg2 arg3 harg3 arg4 harg4 arg5 harg5 arg6 harg6 hc0 hc1 x0 x1 x2 xs0 = Gen.k0_pay1 (Gen.k0_pay3 xs0 x1 x2) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S8x256) offZero2]
  simp only [View.readAt_eq_ld, harg6.read_unread, harg3.read_unread, harg4.read_unread, View.ld_unit_zero (S := S8x256x256) offZero3, View.ld_unit_zero (S := S1x256x256) offZero3]

end Body

theorem out1_3_eq (c : Dev nD) (i : grid1.Coords) (arg1 : Memref sig .tc .vmem S256x256 .f32) (harg1 : arg1.IsWhole) (arg2 : Memref sig .tc .vmem S3200x256 .f32) (harg2 : arg2.IsWhole) (arg3 : Memref sig .tc .vmem S1x3200 .f32) (harg3 : arg3.IsWhole) (arg4 : Memref sig .tc .vmem S256x3200 .f32) (harg4 : arg4.IsWhole) (x0 : Vec F S256x256 .f32) (x1 : Vec F S3200x256 .f32) (x2 : Vec F S1x3200 .f32) :
    out1_3 c i arg1 harg1 arg2 harg2 arg3 harg3 arg4 harg4 x0 x1 x2 = Gen.k1_pay1 x0 x1 x2 := by
  unfold out1_3
  rw [View.read_writes_eq_canon _ _ _ (cover1_3 c i arg1 harg1 arg2 harg2 arg3 harg3 arg4 harg4 x0 x1 x2)]
  unfold kernelRun1
  dsimp only
  sl_unfold_words
  rw [View.canon_unit_zero (S := S256x3200) offZero2]
  simp only [View.readAt_eq_ld, harg1.read_unread, harg2.read_unread, harg3.read_unread, View.ld_unit_zero (S := S256x256) offZero2, View.ld_unit_zero (S := S3200x256) offZero2, View.ld_unit_zero (S := S1x3200) offZero2]

end Cert.KernelIdeal.Fr

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev TH : Shape := ⟨3, ![256, 256, 256]⟩

abbrev TW : Shape := ⟨4, ![10, 24, 256, 256]⟩

abbrev TL : Shape := ⟨2, ![256, 256]⟩

abbrev TV : Shape := ⟨2, ![32000, 256]⟩

abbrev TB : Shape := ⟨1, ![32000]⟩

abbrev TO : Shape := ⟨2, ![256, 32000]⟩

-- the mean of two incoming messages
def half : EReal := ((1 / 2 : ℝ) : EReal)

-- the self-edge message (relation 3) at batch b, position l, output feature e
def selfMsg (W : FVec Ideal TW .f32) (n : Fin 10) (h : FVec Ideal TH .f32) (b l e : Fin 256) : EReal :=
  ∑ k : Fin 256, h (ix3 b l k) * W (ix4 n (3 : Fin 24) k e)

-- the chain-edge message (relation 1) from the predecessor l'
def prevMsg (W : FVec Ideal TW .f32) (n : Fin 10) (h : FVec Ideal TH .f32) (b l' e : Fin 256) : EReal :=
  ∑ k : Fin 256, h (ix3 b l' k) * W (ix4 n (1 : Fin 24) k e)

-- position 0 has one incoming edge, every later position two: mean, then positive part
def layerAt (W : FVec Ideal TW .f32) (n : Fin 10) (h : FVec Ideal TH .f32) (b l e : Fin 256) : EReal :=
  if hl : l.val = 0 then max (selfMsg W n h b l e) 0
  else max ((selfMsg W n h b l e + prevMsg W n h b ⟨l.val - 1, by omega⟩ e) * half) 0

def layer (W : FVec Ideal TW .f32) (n : Fin 10) (h : FVec Ideal TH .f32) : FVec Ideal TH .f32 :=
  fun j => layerAt W n h (j 0) (j 1) (j 2)

-- the state after the first n layers
def states (W : FVec Ideal TW .f32) (h0 : FVec Ideal TH .f32) : ℕ → FVec Ideal TH .f32
  | 0 => h0
  | n + 1 => if hn : n < 10 then layer W ⟨n, hn⟩ (states W h0 n) else states W h0 n

def lastPos (h : FVec Ideal TH .f32) : FVec Ideal TL .f32 := fun j => h (ix3 (j 0) (255 : Fin 256) (j 1))

def outlin (last : FVec Ideal TL .f32) (Wout : FVec Ideal TV .f32) (bout : FVec Ideal TB .f32) : FVec Ideal TO .f32 :=
  fun j => (∑ k : Fin 256, last (ix2 (j 0) k) * Wout (ix2 (j 1) k)) + bout (ix1 (j 1))

-- the tenth state's last position, projected onto the vocabulary and shifted by the bias
def result (h0 : FVec Ideal TH .f32) (W : FVec Ideal TW .f32) (Wout : FVec Ideal TV .f32) (bout : FVec Ideal TB .f32) :
    FVec Ideal TO .f32 :=
  outlin (lastPos (states W h0 10)) Wout bout

theorem states_zero (W : FVec Ideal TW .f32) (h0 : FVec Ideal TH .f32) : states W h0 0 = h0 := rfl

theorem states_succ (W : FVec Ideal TW .f32) (h0 : FVec Ideal TH .f32) (n : ℕ) (hn : n < 10) :
    states W h0 (n + 1) = layer W ⟨n, hn⟩ (states W h0 n) := by
  simp only [states, dif_pos hn]

-- a layer reads the state only in the batch row it writes
theorem layerAt_congr (W : FVec Ideal TW .f32) (n : Fin 10) (h h' : FVec Ideal TH .f32) (b : Fin 256)
    (hb : ∀ l k, h (ix3 b l k) = h' (ix3 b l k)) (l e : Fin 256) : layerAt W n h b l e = layerAt W n h' b l e := by
  unfold layerAt selfMsg prevMsg
  simp only [hb]

end Cert.Spec

end
-- ==== Proof.Payload.lean ====
import proofs.«415765_j59210419143216_1_alg».proof.Proof.Gen.KernelIdeal.Skeleton
import proofs.«415765_j59210419143216_1_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Pay

open Idealize.ShloMosaic Idealize.ShloMosaic.ValueIdx Cert.KernelIdeal Cert.KernelIdeal.Gen

theorem pay2_eq (v : Vec Ideal S8x256x256 .f32) : Gen.k0_pay2 (F := Ideal) v = v := by
  unfold Gen.k0_pay2
  dsimp only
  rw [shapeCast_self, shapeCast_self]

theorem pay4_eq (h : Vec Ideal S8x256x256 .f32) (w3 w1 : Vec Ideal S1x256x256 .f32) :
    Gen.k0_pay4 (F := Ideal) h w3 w1 = Gen.k0_pay3 (F := Ideal) h w3 w1 := by
  unfold Gen.k0_pay4
  dsimp only
  rw [shapeCast_self]

theorem pay1_apply (v : FVec Ideal S8x256x256 .f32) (b : Fin 8) (e : Fin 256) :
    Gen.k0_pay1 (F := Ideal) v (ix2 b e) = v (ix3 b (255 : Fin 256) e) := by
  unfold Gen.k0_pay1
  refine (shapeCast_apply _ shapeCasts_S8x1x256_S8x256 (ix2 b e) (ix3 b (0 : Fin 1) e) ?_).trans ?_
  · rw [Shape.rowMajor_val_three, Shape.rowMajor_val_two]
    show (b.val * 1 + 0) * 256 + e.val = b.val * 256 + e.val
    omega
  · exact extractStridedSlice_apply _ v slices_S8x256x256_o0_255_0_S8x1x256 (ix3 b (0 : Fin 1) e) (ix3 b (255 : Fin 256) e)
      (fun a => match a with
        | ⟨0, _⟩ => by show b.val = 0 + b.val; omega
        | ⟨1, _⟩ => by show 255 = 255 + 0; rfl
        | ⟨2, _⟩ => by show e.val = 0 + e.val; omega)

theorem lhs_out_0 (i : S256x3200.Idx) (q : dot_S256x256_S3200x256_S256x3200_1_1_0_0_n_n.contr.Idx) :
    (dot_S256x256_S3200x256_S256x3200_1_1_0_0_n_n.lhsIdx i q 0).val = (i 0).val := by
  unfold DotDims.lhsIdx
  rw [dif_neg (show ¬(0 : Fin S256x256.rank) ∈ dot_S256x256_S3200x256_S256x3200_1_1_0_0_n_n.lhsBatch by decide), dif_pos (show (0 : Fin S256x256.rank) ∈ dot_S256x256_S3200x256_S256x3200_1_1_0_0_n_n.lhsNonContracting by decide)]
  rfl
theorem lhs_out_1 (i : S256x3200.Idx) (q : dot_S256x256_S3200x256_S256x3200_1_1_0_0_n_n.contr.Idx) :
    (dot_S256x256_S3200x256_S256x3200_1_1_0_0_n_n.lhsIdx i q 1).val = (q ⟨0, by decide⟩).val :=
  dot_S256x256_S3200x256_S256x3200_1_1_0_0_n_n.lhsIdx_val_of_single rfl i q
theorem rhs_out_0 (i : S256x3200.Idx) (q : dot_S256x256_S3200x256_S256x3200_1_1_0_0_n_n.contr.Idx) :
    (dot_S256x256_S3200x256_S256x3200_1_1_0_0_n_n.rhsIdx i q 0).val = (i 1).val := by
  unfold DotDims.rhsIdx
  rw [dif_neg (show ¬(0 : Fin S3200x256.rank) ∈ dot_S256x256_S3200x256_S256x3200_1_1_0_0_n_n.rhsBatch by decide), dif_pos (show (0 : Fin S3200x256.rank) ∈ dot_S256x256_S3200x256_S256x3200_1_1_0_0_n_n.rhsNonContracting by decide)]
  rfl
theorem rhs_out_1 (i : S256x3200.Idx) (q : dot_S256x256_S3200x256_S256x3200_1_1_0_0_n_n.contr.Idx) :
    (dot_S256x256_S3200x256_S256x3200_1_1_0_0_n_n.rhsIdx i q 1).val = (q ⟨0, by decide⟩).val :=
  dot_S256x256_S3200x256_S256x3200_1_1_0_0_n_n.rhsIdx_val_of_single rfl i q

theorem outMatmul_apply (x : FVec Ideal S256x256 .bf16) (w : FVec Ideal S3200x256 .bf16) (b : Fin 256) (v : Fin 3200) :
    matmul dot_S256x256_S3200x256_S256x3200_1_1_0_0_n_n none x w (constant (F := Ideal) S256x3200 .f32 0x00000000#32) (ix2 b v)
      = ∑ k : Fin 256, x (ix2 b k) * w (ix2 v k) := by
  refine (Ideal.matmul_constant_zero_apply dot_S256x256_S3200x256_S256x3200_1_1_0_0_n_n none x w (ix2 b v)).trans ?_
  rw [← Equiv.sum_comp (contrEquiv1 dot_S256x256_S3200x256_S256x3200_1_1_0_0_n_n 256 rfl rfl).symm]
  refine Finset.sum_congr rfl fun k _ => ?_
  have hk := contrEquiv1_symm_val dot_S256x256_S3200x256_S256x3200_1_1_0_0_n_n 256 rfl rfl k
  have el : dot_S256x256_S3200x256_S256x3200_1_1_0_0_n_n.lhsIdx (ix2 b v) ((contrEquiv1 dot_S256x256_S3200x256_S256x3200_1_1_0_0_n_n 256 rfl rfl).symm k) = ix2 b k := funext fun a => Fin.ext (by
    match a with
    | ⟨0, _⟩ => exact lhs_out_0 _ _
    | ⟨1, _⟩ => exact (lhs_out_1 _ _).trans hk)
  have er : dot_S256x256_S3200x256_S256x3200_1_1_0_0_n_n.rhsIdx (ix2 b v) ((contrEquiv1 dot_S256x256_S3200x256_S256x3200_1_1_0_0_n_n 256 rfl rfl).symm k) = ix2 v k := funext fun a => Fin.ext (by
    match a with
    | ⟨0, _⟩ => exact rhs_out_0 _ _
    | ⟨1, _⟩ => exact (rhs_out_1 _ _).trans hk)
  rw [el, er]

theorem lhs_blk_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_blk_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_blk_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_blk_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem blockMatmul_apply (x : FVec Ideal S2048x256 .bf16) (w : FVec Ideal S256x256 .bf16) (r : Fin 2048) (e : Fin 256) :
    matmul dot_S2048x256_S256x256_S2048x256_1_0_0_1_n_n none x w (constant (F := Ideal) S2048x256 .f32 0x00000000#32) (ix2 r e)
      = ∑ k : Fin 256, x (ix2 r k) * w (ix2 k e) := by
  refine (Ideal.matmul_constant_zero_apply dot_S2048x256_S256x256_S2048x256_1_0_0_1_n_n none x w (ix2 r e)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r e) ((contrEquiv1 dot_S2048x256_S256x256_S2048x256_1_0_0_1_n_n 256 rfl rfl).symm k) = ix2 r k := funext fun a => Fin.ext (by
    match a with
    | ⟨0, _⟩ => exact lhs_blk_0 _ _
    | ⟨1, _⟩ => exact (lhs_blk_1 _ _).trans hk)
  have er : dot_S2048x256_S256x256_S2048x256_1_0_0_1_n_n.rhsIdx (ix2 r e) ((contrEquiv1 dot_S2048x256_S256x256_S2048x256_1_0_0_1_n_n 256 rfl rfl).symm k) = ix2 k e := funext fun a => Fin.ext (by
    match a with
    | ⟨0, _⟩ => exact (rhs_blk_0 _ _).trans hk
    | ⟨1, _⟩ => exact rhs_blk_1 _ _)
  rw [el, er]

theorem k1_pay1_apply (last : Vec Ideal S256x256 .f32) (wout : Vec Ideal S3200x256 .f32) (bo : Vec Ideal S1x3200 .f32)
    (b : Fin 256) (v : Fin 3200) :
    Gen.k1_pay1 (F := Ideal) last wout bo (ix2 b v)
      = (∑ k : Fin 256, last (ix2 b k) * wout (ix2 v k)) + bo (ix2 (0 : Fin 1) v) := by
  unfold Gen.k1_pay1
  rw [addf_apply, shapeCast_self, shapeCast_self, outMatmul_apply]
  refine congrArg₂ (· + ·) rfl ?_
  exact broadcastTo_apply bo broadcasts_S1x3200_S256x3200 (ix2 b v) (ix2 (0 : Fin 1) v) (fun a => match a with
    | ⟨0, _⟩ => by show 0 = if (1 : Nat) = 1 then 0 else _; rw [if_pos rfl]
    | ⟨1, _⟩ => by show v.val = if (3200 : Nat) = 1 then 0 else v.val; rw [if_neg (by decide)])

theorem ofBits_half : Ideal.ofBits .f32 0x3F000000#32 = ((1 / 2 : ℝ) : EReal) := by
  simp [Ideal.ofBits, Ideal.ieee, -EReal.coe_mul]; norm_num

theorem select_pos0 {α : Type} (n : Nat) (hn : n < 256) (A B : α) :
    Scalar.select (IntOp.cmpi .eq (BitVec.ofNat 32 n) 0#32) A B = if n = 0 then A else B := by
  by_cases h : n = 0
  · subst h
    rw [if_pos rfl]
    rfl
  · have hne : BitVec.ofNat 32 n ≠ 0#32 := fun h0 => h (by
      have h1 := congrArg BitVec.toNat h0
      rw [BitVec.toNat_ofNat, Nat.mod_eq_of_lt (Nat.lt_of_lt_of_le hn (by norm_num))] at h1
      exact h1)
    have hc : IntOp.cmpi .eq (BitVec.ofNat 32 n) 0#32 = 0#1 := by
      show BitVec.ofBool (BitVec.ofNat 32 n == 0#32) = 0#1
      rw [beq_eq_false_iff_ne.mpr hne]
      rfl
    rw [hc, select_zero, if_neg h]

theorem pos0_apply (b : Fin 8) (l e : Fin 256) :
    cmpi .eq (iota .tc S8x256x256 32 [1] iota_S8x256x256_d1_w32) (broadcast S8x256x256 0#32) (ix3 b l e)
      = IntOp.cmpi .eq (BitVec.ofNat 32 l.val) 0#32 := by
  show IntOp.cmpi .eq (iota .tc S8x256x256 32 [1] iota_S8x256x256_d1_w32 (ix3 b l e)) 0#32 = _
  rw [iota_single_apply]

theorem contraction_apply (x : FVec Ideal S8x256x256 .f32) (w : FVec Ideal S1x256x256 .f32) (b : Fin 8) (l e : Fin 256) :
    shapeCast S8x256x256
        (matmul dot_S2048x256_S256x256_S2048x256_1_0_0_1_n_n none
          (shapeCast S2048x256 (truncf .bf16 x bitsLt_bf16_f32) shapeCasts_S8x256x256_S2048x256)
          (truncf .bf16 (shapeCast S256x256 w shapeCasts_S1x256x256_S256x256) bitsLt_bf16_f32)
          (constant (F := Ideal) S2048x256 .f32 0x00000000#32))
        shapeCasts_S2048x256_S8x256x256 (ix3 b l e)
      = ∑ k : Fin 256, x (ix3 b l k) * w (ix3 (0 : Fin 1) k e) := by
  have hr : b.val * 256 + l.val < 2048 := by have := b.isLt; have := l.isLt; omega
  refine (shapeCast_apply _ shapeCasts_S2048x256_S8x256x256 (ix3 b l e) (ix2 (⟨b.val * 256 + l.val, hr⟩ : Fin 2048) e) ?_).trans ?_
  · rw [Shape.rowMajor_val_three, Shape.rowMajor_val_two]
    rfl
  · rw [blockMatmul_apply]
    refine Finset.sum_congr rfl fun k _ => ?_
    refine congrArg₂ (· * ·) ?_ ?_
    · refine (shapeCast_apply _ shapeCasts_S8x256x256_S2048x256 (ix2 (⟨b.val * 256 + l.val, hr⟩ : Fin 2048) k) (ix3 b l k) ?_).trans rfl
      rw [Shape.rowMajor_val_three, Shape.rowMajor_val_two]
      rfl
    · show shapeCast S256x256 w shapeCasts_S1x256x256_S256x256 (ix2 k e) = _
      refine shapeCast_apply w shapeCasts_S1x256x256_S256x256 (ix2 k e) (ix3 (0 : Fin 1) k e) ?_
      rw [Shape.rowMajor_val_three, Shape.rowMajor_val_two]
      show (0 * 256 + k.val) * 256 + e.val = k.val * 256 + e.val
      omega

-- the rotation by one along the positions with position 0 zeroed reads the predecessor
theorem shifted_apply (h : FVec Ideal S8x256x256 .f32) (b : Fin 8) (l k : Fin 256) :
    select (cmpi .eq (iota .tc S8x256x256 32 [1] iota_S8x256x256_d1_w32) (broadcast S8x256x256 0#32))
        (broadcast S8x256x256 (Scalar.ofBits (F := Ideal) .f32 0x00000000#32))
        (dynamicRotate 1 1#32 none h rotates_S8x256x256_d1) (ix3 b l k)
      = if l.val = 0 then (0 : EReal) else h (ix3 b ⟨l.val - 1, by omega⟩ k) := by
  rw [select_apply, pos0_apply, select_pos0 _ l.isLt, broadcast_apply]
  by_cases hl : l.val = 0
  · rw [if_pos hl, if_pos hl]
    exact Ideal.ofBits_zero_f32
  · rw [if_neg hl, if_neg hl]
    exact dynamicRotate_apply 1 1#32 h rotates_S8x256x256_d1 (ix3 b l k) (ix3 b ⟨l.val - 1, by omega⟩ k) (fun a => match a with
      | ⟨0, _⟩ => by
          show b.val = if (0 : Fin 3) = 1 then _ else b.val
          rw [if_neg (by decide)]
      | ⟨1, _⟩ => by
          show l.val - 1 = if (1 : Fin 3) = 1 then (l.val + 256 - (1#32).toNat % 256) % 256 else l.val
          rw [if_pos rfl]
          show l.val - 1 = (l.val + 256 - 1 % 256) % 256
          have := l.isLt
          omega
      | ⟨2, _⟩ => by
          show k.val = if (2 : Fin 3) = 1 then _ else k.val
          rw [if_neg (by decide)])

theorem shiftedContraction_apply (h : FVec Ideal S8x256x256 .f32) (w : FVec Ideal S1x256x256 .f32) (b : Fin 8) (l e : Fin 256) :
    shapeCast S8x256x256
        (matmul dot_S2048x256_S256x256_S2048x256_1_0_0_1_n_n none
          (shapeCast S2048x256
            (truncf .bf16
              (select (cmpi .eq (iota .tc S8x256x256 32 [1] iota_S8x256x256_d1_w32) (broadcast S8x256x256 0#32))
                (broadcast S8x256x256 (Scalar.ofBits (F := Ideal) .f32 0x00000000#32))
                (dynamicRotate 1 1#32 none h rotates_S8x256x256_d1))
              bitsLt_bf16_f32)
            shapeCasts_S8x256x256_S2048x256)
          (truncf .bf16 (shapeCast S256x256 w shapeCasts_S1x256x256_S256x256) bitsLt_bf16_f32)
          (constant (F := Ideal) S2048x256 .f32 0x00000000#32))
        shapeCasts_S2048x256_S8x256x256 (ix3 b l e)
      = if l.val = 0 then (0 : EReal) else ∑ k : Fin 256, h (ix3 b ⟨l.val - 1, by omega⟩ k) * w (ix3 (0 : Fin 1) k e) := by
  rw [contraction_apply]
  by_cases hl : l.val = 0
  · rw [if_pos hl]
    refine Finset.sum_eq_zero fun k _ => ?_
    rw [shifted_apply, if_pos hl, zero_mul]
  · rw [if_neg hl]
    refine Finset.sum_congr rfl fun k _ => ?_
    rw [shifted_apply, if_neg hl]

theorem pay3_apply_real (h : Vec Ideal S8x256x256 .f32) (w3 w1 : Vec Ideal S1x256x256 .f32) (b : Fin 8) (l e : Fin 256) :
    Gen.k0_pay3 (F := Ideal) h w3 w1 (ix3 b l e)
      = if hl : l.val = 0 then max (∑ k : Fin 256, h (ix3 b l k) * w3 (ix3 (0 : Fin 1) k e)) 0
        else max ((∑ k : Fin 256, h (ix3 b l k) * w3 (ix3 (0 : Fin 1) k e)
              + ∑ k : Fin 256, h (ix3 b ⟨l.val - 1, by omega⟩ k) * w1 (ix3 (0 : Fin 1) k e)) * ((1 / 2 : ℝ) : EReal)) 0 := by
  unfold Gen.k0_pay3
  rw [maximumf_apply, select_apply, mulf_apply, addf_apply, pos0_apply, select_pos0 _ l.isLt,
    broadcast_apply, broadcast_apply, shiftedContraction_apply, contraction_apply]
  simp only [Ideal.ofBits_def, Ideal.ofBits_zero_f32, ofBits_half]
  by_cases hl : l.val = 0
  · simp only [if_pos hl, dif_pos hl, add_zero]
  · simp only [if_neg hl, dif_neg hl]

-- the body's arithmetic at a cell: the self contraction plus the shifted contraction, kept at position 0 and halved elsewhere, then the positive part
theorem pay3_apply (h : Vec Ideal S8x256x256 .f32) (w3 w1 : Vec Ideal S1x256x256 .f32) (b : Fin 8) (l e : Fin 256) :
    Gen.k0_pay3 (F := Ideal) h w3 w1 (ix3 b l e)
      = if hl : l.val = 0 then max (∑ k : Fin 256, h (ix3 b l k) * w3 (ix3 (0 : Fin 1) k e)) 0
        else max ((∑ k : Fin 256, h (ix3 b l k) * w3 (ix3 (0 : Fin 1) k e)
              + ∑ k : Fin 256, h (ix3 b ⟨l.val - 1, by omega⟩ k) * w1 (ix3 (0 : Fin 1) k e)) * Cert.Spec.half) 0 :=
  pay3_apply_real h w3 w1 b l e

end Cert.KernelIdeal.Pay

end
-- ==== Proof.KI.Value0.lean ====
import proofs.«415765_j59210419143216_1_alg».proof.Proof.KI.Pieces
import proofs.«415765_j59210419143216_1_alg».proof.Proof.Payload
import proofs.«415765_j59210419143216_1_alg».proof.Proof.Spec
import Idealize.ShloMosaic.Lib.ValueIdx
import Idealize.ShloMosaic.Lib.Pipeline.Value

set_option maxRecDepth 16384

noncomputable section

namespace Cert.KernelIdeal.Val0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr

variable (V : (c : Dev nD) → (b : Ref sig .tc) → Buf (Elt Ideal) ((c : Thread nD τ).loc b))

abbrev harr (c : Dev nD) : FVec Ideal S256x256x256 .f32 := V c main_v0

abbrev wsarr (c : Dev nD) : FVec Ideal S10x256x256 .f32 := V c main_v2

abbrev wparr (c : Dev nD) : FVec Ideal S10x256x256 .f32 := V c main_v4

abbrev hblk (c : Dev nD) (t : Fin cfg0.N) : Vec Ideal S8x256x256 .f32 := iblk0 V c 0 t

abbrev wsblk (c : Dev nD) (t : Fin cfg0.N) : Vec Ideal S1x256x256 .f32 := iblk0 V c 1 t

abbrev wpblk (c : Dev nD) (t : Fin cfg0.N) : Vec Ideal S1x256x256 .f32 := iblk0 V c 2 t

theorem idx_facts0 : ∀ t : Fin cfg0.N,
    win0_0.index t (0 : Fin 3) = t.val / 10 ∧ win0_0.index t (1 : Fin 3) = 0 ∧ win0_0.index t (2 : Fin 3) = 0
    ∧ win0_1.index t (0 : Fin 3) = t.val % 10 ∧ win0_1.index t (1 : Fin 3) = 0 ∧ win0_1.index t (2 : Fin 3) = 0
    ∧ win0_2.index t (0 : Fin 3) = t.val % 10 ∧ win0_2.index t (1 : Fin 3) = 0 ∧ win0_2.index t (2 : Fin 3) = 0
    ∧ win0_3.index t (0 : Fin 2) = t.val / 10 ∧ win0_3.index t (1 : Fin 2) = 0 :=
  (by decide +kernel : ∀ t : Fin grid0.N, _)

theorem N0_eq : cfg0.N = 320 := N_0

theorem hblk_apply (c : Dev nD) (t : Fin cfg0.N) (b' : Fin 8) (l e : Fin 256) (r : Fin 256) (hr : r.val = 8 * (t.val / 10) + b'.val) :
    hblk V c t (ix3 b' l e) = harr V c (ix3 r l e) := by
  obtain ⟨e0, e1, e2, -⟩ := idx_facts0 t
  show ((cfg0.win 0).blk t).view.read (Elt Ideal) (V c main_v0) (ix3 b' l e) = V c main_v0 (ix3 r l e)
  rw [View.read_apply]
  refine congrArg (V c main_v0) ?_
  funext a; apply Fin.ext
  match a with
  | ⟨0, _⟩ => show win0_0.index t (0 : Fin 3) * 8 + 1 * b'.val = r.val; rw [e0, hr]; omega
  | ⟨1, _⟩ => show win0_0.index t (1 : Fin 3) * 256 + 1 * l.val = l.val; rw [e1]; omega
  | ⟨2, _⟩ => show win0_0.index t (2 : Fin 3) * 256 + 1 * e.val = e.val; rw [e2]; omega

theorem wsblk_apply (c : Dev nD) (t : Fin cfg0.N) (k e : Fin 256) (n : Fin 10) (hn : n.val = t.val % 10) :
    wsblk V c t (ix3 (0 : Fin 1) k e) = wsarr V c (ix3 n k e) := by
  obtain ⟨-, -, -, e0, e1, e2, -⟩ := idx_facts0 t
  show ((cfg0.win 1).blk t).view.read (Elt Ideal) (V c main_v2) (ix3 (0 : Fin 1) k e) = V c main_v2 (ix3 n k e)
  rw [View.read_apply]
  refine congrArg (V c main_v2) ?_
  funext a; apply Fin.ext
  match a with
  | ⟨0, _⟩ => show win0_1.index t (0 : Fin 3) * 1 + 1 * 0 = n.val; rw [e0, hn]; omega
  | ⟨1, _⟩ => show win0_1.index t (1 : Fin 3) * 256 + 1 * k.val = k.val; rw [e1]; omega
  | ⟨2, _⟩ => show win0_1.index t (2 : Fin 3) * 256 + 1 * e.val = e.val; rw [e2]; omega

theorem wpblk_apply (c : Dev nD) (t : Fin cfg0.N) (k e : Fin 256) (n : Fin 10) (hn : n.val = t.val % 10) :
    wpblk V c t (ix3 (0 : Fin 1) k e) = wparr V c (ix3 n k e) := by
  obtain ⟨-, -, -, -, -, -, e0, e1, e2, -⟩ := idx_facts0 t
  show ((cfg0.win 2).blk t).view.read (Elt Ideal) (V c main_v4) (ix3 (0 : Fin 1) k e) = V c main_v4 (ix3 n k e)
  rw [View.read_apply]
  refine congrArg (V c main_v4) ?_
  funext a; apply Fin.ext
  match a with
  | ⟨0, _⟩ => show win0_2.index t (0 : Fin 3) * 1 + 1 * 0 = n.val; rw [e0, hn]; omega
  | ⟨1, _⟩ => show win0_2.index t (1 : Fin 3) * 256 + 1 * k.val = k.val; rw [e1]; omega
  | ⟨2, _⟩ => show win0_2.index t (2 : Fin 3) * 256 + 1 * e.val = e.val; rw [e2]; omega

-- one layer on a block of eight batch rows is the specification's layer on those rows
theorem layer_block (W : FVec Ideal Cert.Spec.TW .f32) (n : Fin 10) (H : FVec Ideal Cert.Spec.TH .f32)
    (h : Vec Ideal S8x256x256 .f32) (w3 w1 : Vec Ideal S1x256x256 .f32) (b' : Fin 8) (r : Fin 256)
    (hh : ∀ l k : Fin 256, h (ix3 b' l k) = H (ix3 r l k))
    (hw3 : ∀ k e : Fin 256, w3 (ix3 (0 : Fin 1) k e) = W (ix4 n (3 : Fin 24) k e))
    (hw1 : ∀ k e : Fin 256, w1 (ix3 (0 : Fin 1) k e) = W (ix4 n (1 : Fin 24) k e))
    (l e : Fin 256) :
    Gen.k0_pay3 (F := Ideal) h w3 w1 (ix3 b' l e) = Cert.Spec.layer W n H (ix3 r l e) := by
  refine (Pay.pay3_apply h w3 w1 b' l e).trans ?_
  show _ = Cert.Spec.layerAt W n H r l e
  unfold Cert.Spec.layerAt Cert.Spec.selfMsg Cert.Spec.prevMsg
  simp only [hh, hw3, hw1]

theorem predLt (t : Fin cfg0.N) : t.val - 1 < cfg0.N := Nat.lt_of_le_of_lt (Nat.sub_le _ _) t.isLt

theorem state_A (c : Dev nD) (t : Fin cfg0.N) (h0 : t.val % 10 = 0) (h1 : ¬t.val % 10 = 9) :
    (outsAt0 V c t.val t.isLt).2 = Gen.k0_pay3 (F := Ideal) (hblk V c t) (wsblk V c t) (wpblk V c t) := by
  rw [outsAt0_A V c t h0 h1]
  dsimp only
  refine (sout0_A_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (hblk V c t) (wsblk V c t) (wpblk V c t)).trans ?_
  rw [Pay.pay4_eq, Pay.pay2_eq]

theorem state_B (c : Dev nD) (t : Fin cfg0.N) (h0 : ¬t.val % 10 = 0) (h1 : ¬t.val % 10 = 9) :
    (outsAt0 V c t.val t.isLt).2 = Gen.k0_pay3 (F := Ideal) (outsAt0 V c (t.val - 1) (predLt t)).2 (wsblk V c t) (wpblk V c t) := by
  rw [outsAt0_B V c t h0 h1]
  dsimp only
  refine (sout0_B_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (hblk V c t) (wsblk V c t) (wpblk V c t) (outsAt0 V c (t.val - 1) (predLt t)).2).trans ?_
  rw [Pay.pay4_eq]

theorem state_C (c : Dev nD) (t : Fin cfg0.N) (h0 : ¬t.val % 10 = 0) (h1 : t.val % 10 = 9) :
    (outsAt0 V c t.val t.isLt).2 = Gen.k0_pay3 (F := Ideal) (outsAt0 V c (t.val - 1) (predLt t)).2 (wsblk V c t) (wpblk V c t) := by
  rw [outsAt0_C V c t h0 h1]
  dsimp only
  refine (sout0_C_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hblk V c t) (wsblk V c t) (wpblk V c t) (outsAt0 V c (t.val - 1) (predLt t)).2).trans ?_
  rw [Pay.pay4_eq]

theorem out_C (c : Dev nD) (t : Fin cfg0.N) (h0 : ¬t.val % 10 = 0) (h1 : t.val % 10 = 9) :
    (outsAt0 V c t.val t.isLt).1 = Gen.k0_pay1 (F := Ideal) (Gen.k0_pay3 (F := Ideal) (outsAt0 V c (t.val - 1) (predLt t)).2 (wsblk V c t) (wpblk V c t)) := by
  rw [outsAt0_C V c t h0 h1]
  dsimp only
  exact out0_C_3_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (hblk V c t) (wsblk V c t) (wpblk V c t) (outsAt0 V c (t.val - 1) (predLt t)).2

abbrev Hs (c : Dev nD) (W : FVec Ideal Cert.Spec.TW .f32) (n : ℕ) : FVec Ideal Cert.Spec.TH .f32 :=
  Cert.Spec.states W (harr V c) n

-- after position 10·ib + layer the kept state holds rows 8·ib … 8·ib + 7 of the state after layer + 1 layers
theorem state_inv (c : Dev nD) (W : FVec Ideal Cert.Spec.TW .f32)
    (hws : ∀ (n : Fin 10) (k e : Fin 256), wsarr V c (ix3 n k e) = W (ix4 n (3 : Fin 24) k e))
    (hwp : ∀ (n : Fin 10) (k e : Fin 256), wparr V c (ix3 n k e) = W (ix4 n (1 : Fin 24) k e)) :
    ∀ (n : ℕ) (hn : n < cfg0.N) (b' : Fin 8) (r : Fin 256) (hr : r.val = 8 * (n / 10) + b'.val) (l e : Fin 256),
      (outsAt0 V c n hn).2 (ix3 b' l e) = Hs V c W (n % 10 + 1) (ix3 r l e) := by
  intro n
  induction n using Nat.strong_induction_on with
  | _ n ih =>
    intro hn b' r hr l e
    have hN : n < 320 := lt_of_lt_of_eq hn N0_eq
    have hlay : n % 10 < 10 := Nat.mod_lt _ (by norm_num)
    have hs : Hs V c W (n % 10 + 1) = Cert.Spec.layer W ⟨n % 10, hlay⟩ (Hs V c W (n % 10)) :=
      Cert.Spec.states_succ W (harr V c) (n % 10) hlay
    have hw3 : ∀ k e : Fin 256, wsblk V c ⟨n, hn⟩ (ix3 (0 : Fin 1) k e) = W (ix4 (⟨n % 10, hlay⟩ : Fin 10) (3 : Fin 24) k e) :=
      fun k e => (wsblk_apply V c ⟨n, hn⟩ k e ⟨n % 10, hlay⟩ rfl).trans (hws _ k e)
    have hw1 : ∀ k e : Fin 256, wpblk V c ⟨n, hn⟩ (ix3 (0 : Fin 1) k e) = W (ix4 (⟨n % 10, hlay⟩ : Fin 10) (1 : Fin 24) k e) :=
      fun k e => (wpblk_apply V c ⟨n, hn⟩ k e ⟨n % 10, hlay⟩ rfl).trans (hwp _ k e)
    rw [hs]
    by_cases h0 : n % 10 = 0
    · have h1 : ¬n % 10 = 9 := by omega
      rw [state_A V c ⟨n, hn⟩ h0 h1]
      refine layer_block W ⟨n % 10, hlay⟩ (Hs V c W (n % 10)) (hblk V c ⟨n, hn⟩) (wsblk V c ⟨n, hn⟩) (wpblk V c ⟨n, hn⟩) b' r (fun l k => ?_) hw3 hw1 l e
      rw [h0]
      exact hblk_apply V c ⟨n, hn⟩ b' l k r hr
    · have hprev : ∀ l k : Fin 256, (outsAt0 V c (n - 1) (predLt ⟨n, hn⟩)).2 (ix3 b' l k) = Hs V c W (n % 10) (ix3 r l k) := fun l k => by
        have hp := ih (n - 1) (by omega) (predLt ⟨n, hn⟩) b' r (by omega) l k
        rw [show (n - 1) % 10 + 1 = n % 10 from by omega] at hp
        exact hp
      by_cases h1 : n % 10 = 9
      · rw [state_C V c ⟨n, hn⟩ h0 h1]
        exact layer_block W ⟨n % 10, hlay⟩ (Hs V c W (n % 10)) (outsAt0 V c (n - 1) (predLt ⟨n, hn⟩)).2 (wsblk V c ⟨n, hn⟩) (wpblk V c ⟨n, hn⟩) b' r hprev hw3 hw1 l e
      · rw [state_B V c ⟨n, hn⟩ h0 h1]
        exact layer_block W ⟨n % 10, hlay⟩ (Hs V c W (n % 10)) (outsAt0 V c (n - 1) (predLt ⟨n, hn⟩)).2 (wsblk V c ⟨n, hn⟩) (wpblk V c ⟨n, hn⟩) b' r hprev hw3 hw1 l e

abbrev G (c : Dev nD) (W : FVec Ideal Cert.Spec.TW .f32) : FVec Ideal S256x256 .f32 := Cert.Spec.lastPos (Hs V c W 10)

theorem out_rows (c : Dev nD) (W : FVec Ideal Cert.Spec.TW .f32)
    (hws : ∀ (n : Fin 10) (k e : Fin 256), wsarr V c (ix3 n k e) = W (ix4 n (3 : Fin 24) k e))
    (hwp : ∀ (n : Fin 10) (k e : Fin 256), wparr V c (ix3 n k e) = W (ix4 n (1 : Fin 24) k e))
    (t : Fin cfg0.N) (h9 : t.val % 10 = 9) (b' : Fin 8) (e : Fin 256) (r : Fin 256) (hr : r.val = 8 * (t.val / 10) + b'.val) :
    (outsAt0 V c t.val t.isLt).1 (ix2 b' e) = G V c W (ix2 r e) := by
  have h0 : ¬t.val % 10 = 0 := by omega
  rw [out_C V c t h0 h9]
  refine (Pay.pay1_apply _ b' e).trans ?_
  rw [← state_C V c t h0 h9]
  refine (state_inv V c W hws hwp t.val t.isLt b' r hr (255 : Fin 256) e).trans ?_
  rw [h9]
  rfl

theorem flushed_eq (c : Dev nD) (W : FVec Ideal Cert.Spec.TW .f32)
    (hws : ∀ (n : Fin 10) (k e : Fin 256), wsarr V c (ix3 n k e) = W (ix4 n (3 : Fin 24) k e))
    (hwp : ∀ (n : Fin 10) (k e : Fin 256), wparr V c (ix3 n k e) = W (ix4 n (1 : Fin 24) k e))
    (t : Fin cfg0.N) (hf : (cfg0.win 3).flush t = true) :
    (dat0 (F := Ideal) V c).flushed 3 t = ((cfg0.win 3).blk t).view.read (Elt Ideal) (G V c W) := by
  have h9 : t.val % 10 = 9 := (flush0_3 t).mp hf
  have hN : t.val < 320 := lt_of_lt_of_eq t.isLt N0_eq
  obtain ⟨-, -, -, -, -, -, -, -, -, e0, e1⟩ := idx_facts0 t
  show (cfg0.win 3).cut (grid0.coords t) ((dat0 (F := Ideal) V c).after 3 t) = _
  rw [after0_3]
  funext j
  rw [View.read_apply]
  have hb : (j 0).val < 8 := (j 0).isLt
  have he : (j 1).val < 256 := (j 1).isLt
  have hr : 8 * (t.val / 10) + (j 0).val < 256 := by omega
  refine Eq.trans (?_ : _ = (outsAt0 V c t.val t.isLt).1 (ix2 (⟨(j 0).val, hb⟩ : Fin 8) (⟨(j 1).val, he⟩ : Fin 256))) ?_
  · exact congrArg (outsAt0 V c t.val t.isLt).1 (funext fun a => by
      match a with
      | ⟨0, _⟩ => rfl
      | ⟨1, _⟩ => rfl)
  refine (out_rows V c W hws hwp t h9 ⟨(j 0).val, hb⟩ ⟨(j 1).val, he⟩ ⟨8 * (t.val / 10) + (j 0).val, hr⟩ rfl).trans ?_
  refine congrArg (G V c W) ?_
  funext a; apply Fin.ext
  match a with
  | ⟨0, _⟩ => show 8 * (t.val / 10) + (j 0).val = win0_3.index t (0 : Fin 2) * 8 + 1 * (j 0).val; rw [e0]; omega
  | ⟨1, _⟩ => show (j 1).val = win0_3.index t (1 : Fin 2) * 256 + 1 * (j 1).val; rw [e1]; omega

theorem mem_blk (t : Fin cfg0.N) (i : S256x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v5).slice (win0_3.rect t)).set ↔ _
  rw [View.set_slice_whole, Rect.mem_set_unit]
  exact Iff.rfl

theorem cover (i : S256x256.Idx) : ∃ t : Fin cfg0.N, (cfg0.win 3).flush t = true ∧ i ∈ ((cfg0.win 3).blk t).view.set := by
  have hi0 : (i 0).val < 256 := (i 0).isLt
  have hi1 : (i 1).val < 256 := (i 1).isLt
  have hlt : 10 * ((i 0).val / 8) + 9 < cfg0.N := by rw [N0_eq]; omega
  obtain ⟨-, -, -, -, -, -, -, -, -, e0, e1⟩ := idx_facts0 ⟨10 * ((i 0).val / 8) + 9, hlt⟩
  have e0' : win0_3.index ⟨10 * ((i 0).val / 8) + 9, hlt⟩ (0 : Fin 2) = (i 0).val / 8 := by
    rw [e0]; show (10 * ((i 0).val / 8) + 9) / 10 = (i 0).val / 8; omega
  refine ⟨⟨10 * ((i 0).val / 8) + 9, hlt⟩, (flush0_3 _).mpr (by show (10 * ((i 0).val / 8) + 9) % 10 = 9; omega), ?_⟩
  rw [mem_blk]
  intro a
  match a with
  | ⟨0, _⟩ =>
    show win0_3.index ⟨10 * ((i 0).val / 8) + 9, hlt⟩ (0 : Fin 2) * 8 ≤ (i 0).val ∧ (i 0).val < win0_3.index ⟨10 * ((i 0).val / 8) + 9, hlt⟩ (0 : Fin 2) * 8 + 8
    rw [e0']; omega
  | ⟨1, _⟩ =>
    show win0_3.index ⟨10 * ((i 0).val / 8) + 9, hlt⟩ (1 : Fin 2) * 256 ≤ (i 1).val ∧ (i 1).val < win0_3.index ⟨10 * ((i 0).val / 8) + 9, hlt⟩ (1 : Fin 2) * 256 + 256
    rw [e1]; omega

-- region 0's result array is the last position of the tenth state
theorem final0 (c : Dev nD) (W : FVec Ideal Cert.Spec.TW .f32)
    (hws : ∀ (n : Fin 10) (k e : Fin 256), (V c main_v2 : FVec Ideal S10x256x256 .f32) (ix3 n k e) = W (ix4 n (3 : Fin 24) k e))
    (hwp : ∀ (n : Fin 10) (k e : Fin 256), (V c main_v4 : FVec Ideal S10x256x256 .f32) (ix3 n k e) = W (ix4 n (1 : Fin 24) k e)) :
    ((dat0 (F := Ideal) V c).arrAt 3 cfg0.N : FVec Ideal S256x256 .f32)
      = Cert.Spec.lastPos (Cert.Spec.states W (V c main_v0 : FVec Ideal S256x256x256 .f32) 10) :=
  (dat0 (F := Ideal) V c).arrAt_eq_of_cover 3 (G V c W) (fun t hf => flushed_eq V c W hws hwp t hf) cover

end Cert.KernelIdeal.Val0

end
-- ==== Proof.KI.Value1.lean ====
import proofs.«415765_j59210419143216_1_alg».proof.Proof.KI.Region1
import proofs.«415765_j59210419143216_1_alg».proof.Proof.Payload
import proofs.«415765_j59210419143216_1_alg».proof.Proof.Spec
import Idealize.ShloMosaic.Lib.Pipeline.Value
import Idealize.ShloMosaic.Lib.ValueIdx

noncomputable section

namespace Cert.KernelIdeal.Val1

open Idealize.ShloMosaic Idealize.ShloMosaic.TcCoe Idealize.ShloMosaic.ValueIdx
open Idealize.ShloMosaic.Pipeline (Dat)
open Idealize.ShloMosaic.Tactic
open Cert.KernelIdeal Cert.KernelIdeal.Gen Cert.KernelIdeal.Fr Cert.KernelIdeal.Pay

theorem zero_offsets : (![0, 0] : Fin 2 → Nat) = fun _ => 0 := funext fun a => by fin_cases a <;> rfl

theorem tile_stored {F : FTy → Type} [FloatOps F] (c : Dev nD) (i : grid1.Coords) (arg1 : Memref sig .tc .vmem S256x256 .f32) (harg1 : arg1.IsWhole) (arg2 : Memref sig .tc .vmem S3200x256 .f32) (harg2 : arg2.IsWhole) (arg3 : Memref sig .tc .vmem S1x3200 .f32) (harg3 : arg3.IsWhole) (arg4 : Memref sig .tc .vmem S256x3200 .f32) (harg4 : arg4.IsWhole)
    (x0 : Vec F S256x256 .f32) (x1 : Vec F S3200x256 .f32) (x2 : Vec F S1x3200 .f32) :
    out1_3 c i arg1 harg1 arg2 harg2 arg3 harg3 arg4 harg4 x0 x1 x2 = Gen.k1_pay1 x0 x1 x2 := by
  unfold out1_3
  rw [View.read_writes_eq_canon _ _ _ (cover1_3 c i arg1 harg1 arg2 harg2 arg3 harg3 arg4 harg4 x0 x1 x2)]
  unfold kernelRun1
  dsimp only
  sl_unfold_words
  rw [View.canon_unit_zero zero_offsets]
  simp only [View.readAt_eq_ld, harg1.read_unread, harg2.read_unread, harg3.read_unread,
    View.ld_unit_zero (S := S256x256) zero_offsets, View.ld_unit_zero (S := S3200x256) zero_offsets, View.ld_unit_zero (S := S1x3200) zero_offsets]

variable (V : (c : Dev nD) → (b : Ref sig .tc) → Buf (Elt Ideal) ((c : Thread nD τ).loc b))

theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem N1 : cfg1.N = 10 := by decide

abbrev lastA (c : Dev nD) : FVec Ideal S256x256 .f32 := V c main_v5

abbrev woutA (c : Dev nD) : FVec Ideal S32000x256 .f32 := V c main_arg3

abbrev biasA (c : Dev nD) : FVec Ideal S1x32000 .f32 := V c main_v6

theorem states_blk (c : Dev nD) (t : Fin cfg1.N) (x : S256x256.Idx) (k : S256x256.Idx)
    (hk0 : (k 0).val = (x 0).val) (hk1 : (k 1).val = (x 1).val) :
    (iblk1 V c 0 t : Vec Ideal S256x256 .f32) x = lastA V c k := by
  obtain ⟨e0, e1, -⟩ := idx_facts t
  unfold iblk1
  rw [View.read_apply]
  show V c main_v5 _ = V c main_v5 _
  congr 1
  funext a
  apply Fin.ext
  match a with
  | ⟨0, _⟩ => show win1_0.index t (0 : Fin 2) * 256 + 1 * (x 0).val = (k 0).val; rw [e0, hk0]; omega
  | ⟨1, _⟩ => show win1_0.index t (1 : Fin 2) * 256 + 1 * (x 1).val = (k 1).val; rw [e1, hk1]; omega

theorem weights_blk (c : Dev nD) (t : Fin cfg1.N) (x : S3200x256.Idx) (k : S32000x256.Idx)
    (hk0 : (k 0).val = 3200 * t.val + (x 0).val) (hk1 : (k 1).val = (x 1).val) :
    (iblk1 V c 1 t : Vec Ideal S3200x256 .f32) x = woutA V c k := by
  obtain ⟨-, -, e0, e1, -⟩ := idx_facts t
  unfold iblk1
  rw [View.read_apply]
  show V c main_arg3 _ = V c main_arg3 _
  congr 1
  funext a
  apply Fin.ext
  match a with
  | ⟨0, _⟩ => show win1_1.index t (0 : Fin 2) * 3200 + 1 * (x 0).val = (k 0).val; rw [e0, hk0]; omega
  | ⟨1, _⟩ => show win1_1.index t (1 : Fin 2) * 256 + 1 * (x 1).val = (k 1).val; rw [e1, hk1]; omega

theorem bias_blk (c : Dev nD) (t : Fin cfg1.N) (x : S1x3200.Idx) (k : S1x32000.Idx)
    (hk1 : (k 1).val = 3200 * t.val + (x 1).val) :
    (iblk1 V c 2 t : Vec Ideal S1x3200 .f32) x = biasA V c k := by
  obtain ⟨-, -, -, -, e0, e1, -⟩ := idx_facts t
  unfold iblk1
  rw [View.read_apply]
  show V c main_v6 _ = V c main_v6 _
  congr 1
  funext a
  apply Fin.ext
  match a with
  | ⟨0, _⟩ =>
    show win1_2.index t (0 : Fin 2) * 1 + 1 * (x 0).val = (k 0).val
    have hx : (x 0).val < 1 := (x 0).isLt
    have hk : (k 0).val < 1 := (k 0).isLt
    rw [e0]; omega
  | ⟨1, _⟩ => show win1_2.index t (1 : Fin 2) * 3200 + 1 * (x 1).val = (k 1).val; rw [e1, hk1]; omega

abbrev logits (c : Dev nD) : FVec Ideal S256x32000 .f32 :=
  Cert.Spec.outlin (lastA V c) (woutA V c) (fun j => biasA V c (ix2 (0 : Fin 1) (j 0)))

theorem pay_at (last : Vec Ideal S256x256 .f32) (wout : Vec Ideal S3200x256 .f32) (bo : Vec Ideal S1x3200 .f32) (y : S256x3200.Idx) :
    Gen.k1_pay1 (F := Ideal) last wout bo y
      = (∑ k : Fin 256, last (ix2 (y 0) k) * wout (ix2 (y 1) k)) + bo (ix2 (0 : Fin 1) (y 1)) := by
  exact (congrArg (Gen.k1_pay1 (F := Ideal) last wout bo) (eq_ix2 y)).trans (k1_pay1_apply last wout bo (y 0) (y 1))

theorem tile_at (c : Dev nD) (t : Fin cfg1.N) (y : S256x3200.Idx) (i : S256x32000.Idx)
    (h0 : (i 0).val = (y 0).val) (h1 : (i 1).val = 3200 * t.val + (y 1).val) :
    Gen.k1_pay1 (F := Ideal) (iblk1 V c 0 t) (iblk1 V c 1 t) (iblk1 V c 2 t) y = logits V c i := by
  refine (pay_at (iblk1 V c 0 t) (iblk1 V c 1 t) (iblk1 V c 2 t) y).trans ?_
  show _ = (∑ k : Fin 256, lastA V c (ix2 (i 0) k) * woutA V c (ix2 (i 1) k)) + biasA V c (ix2 (0 : Fin 1) (i 1))
  refine congrArg₂ (· + ·) (Finset.sum_congr rfl fun k _ => congrArg₂ (· * ·) ?_ ?_) ?_
  · exact states_blk V c t (ix2 (y 0) k) (ix2 (i 0) k) h0 rfl
  · exact weights_blk V c t (ix2 (y 1) k) (ix2 (i 1) k) h1 rfl
  · exact bias_blk V c t (ix2 (0 : Fin 1) (y 1)) (ix2 (0 : Fin 1) (i 1)) h1

theorem flushed_eq (c : Dev nD) (t : Fin cfg1.N) :
    (dat1 (F := Ideal) V c).flushed 3 t = ((cfg1.win 3).blk t).view.read (Elt Ideal) (logits V c) := by
  show (cfg1.win 3).cut (grid1.coords t) ((dat1 (F := Ideal) V c).after 3 t) = _
  rw [after1_3, tile_stored]
  obtain ⟨-, -, -, -, -, -, e0, e1⟩ := idx_facts t
  funext j
  rw [View.read_apply]
  refine tile_at V c t ((cfg1.win 3).xinj (grid1.coords t) j) (((cfg1.win 3).blk t).view.emb j) ?_ ?_
  · show win1_3.index t (0 : Fin 2) * 256 + 1 * (j 0).val = (j 0).val
    rw [e0]; omega
  · show win1_3.index t (1 : Fin 2) * 3200 + 1 * (j 1).val = 3200 * t.val + (j 1).val
    rw [e1]; omega

theorem mem_blk (t : Fin cfg1.N) (i : S256x32000.Idx) :
    i ∈ ((cfg1.win 3).blk t).view.set ↔ ∀ a : Fin 2, win1_3.index t a * S256x3200.size a ≤ (i a).val ∧ (i a).val < win1_3.index t a * S256x3200.size a + S256x3200.size a := by
  show i ∈ ((View.whole main_v7).slice (win1_3.rect t)).set ↔ _
  rw [View.set_slice_whole, Rect.mem_set_unit]
  exact Iff.rfl

-- column v lies in tile v / 3200: the ten tiles cover the result
theorem cover (i : S256x32000.Idx) : ∃ t : Fin cfg1.N, (cfg1.win 3).flush t = true ∧ i ∈ ((cfg1.win 3).blk t).view.set := by
  have hi0 : (i 0).val < 256 := (i 0).isLt
  have hi1 : (i 1).val < 32000 := (i 1).isLt
  have hN : cfg1.N = 10 := N1
  refine ⟨⟨(i 1).val / 3200, by rw [hN]; omega⟩, flush1_3 _, ?_⟩
  rw [mem_blk]
  obtain ⟨-, -, -, -, -, -, e0, e1⟩ := idx_facts ⟨(i 1).val / 3200, by rw [hN]; omega⟩
  intro a
  match a with
  | ⟨0, _⟩ =>
    show win1_3.index _ (0 : Fin 2) * 256 ≤ (i 0).val ∧ (i 0).val < win1_3.index _ (0 : Fin 2) * 256 + 256
    rw [e0]; omega
  | ⟨1, _⟩ =>
    show win1_3.index _ (1 : Fin 2) * 3200 ≤ (i 1).val ∧ (i 1).val < win1_3.index _ (1 : Fin 2) * 3200 + 3200
    rw [e1]
    show (i 1).val / 3200 * 3200 ≤ (i 1).val ∧ (i 1).val < (i 1).val / 3200 * 3200 + 3200
    omega

-- region 1's result array is the projection of the whole arrays
theorem final1 (c : Dev nD) :
    ((dat1 (F := Ideal) V c).arrAt 3 cfg1.N : FVec Ideal S256x32000 .f32)
      = Cert.Spec.outlin (V c main_v5 : FVec Ideal S256x256 .f32) (V c main_arg3 : FVec Ideal S32000x256 .f32)
          (fun j => (V c main_v6 : FVec Ideal S1x32000 .f32) (ix2 (0 : Fin 1) (j 0))) :=
  (dat1 (F := Ideal) V c).arrAt_eq_of_cover 3 (logits V c) (fun t _ => flushed_eq V c t) cover

end Cert.KernelIdeal.Val1

end
-- ==== Proof.RefValue.lean ====
import proofs.«415765_j59210419143216_1_alg».proof.Proof.Gen.ReferenceIdeal
import Idealize.ShloMosaic.Lib.StableHlo.Run
import proofs.«415765_j59210419143216_1_alg».proof.Proof.Spec
import Idealize.ShloMosaic.PureOps.Ideal
import Idealize.ShloMosaic.Lib.ValueIdx
import Idealize.ShloMosaic.Lib.Pipeline.Value
import Idealize.ShloMosaic.PureOps.Ideal.Laws

noncomputable section

namespace Cert.RefBridge

open Cert.ReferenceIdeal Cert.ReferenceIdeal.Gen Idealize.ShloMosaic Idealize.ShloMosaic.ValueIdx

section Fold

variable {ι κ α : Type}

-- a cell on which no step of the fold lands keeps its value
theorem foldl_miss (g : κ → Option ι) (st : (ι → α) → κ → (ι → α)) (f : α → α → α) (v : κ → α) [DecidableEq ι]
    (hsome : ∀ r n i0, g n = some i0 → ∀ i', st r n i' = if i' = i0 then f (r i0) (v n) else r i')
    (hnone : ∀ r n, g n = none → st r n = r)
    (i : ι) (L : List κ) (hL : ∀ n ∈ L, g n ≠ some i) (r : ι → α) : L.foldl st r i = r i := by
  induction L generalizing r with
  | nil => rfl
  | cons n L ih =>
    rw [List.foldl_cons, ih (fun m hm => hL m (List.mem_cons_of_mem _ hm))]
    have hn : g n ≠ some i := hL n (List.mem_cons_self ..)
    cases hg : g n with
    | none => rw [hnone r n hg]
    | some i0 =>
      rw [hsome r n i0 hg i, if_neg]
      intro e
      exact hn (hg.trans (congrArg some e.symm))

-- a cell on which exactly one step lands is combined once, with that step's update
theorem foldl_hit (g : κ → Option ι) (st : (ι → α) → κ → (ι → α)) (f : α → α → α) (v : κ → α) [DecidableEq ι]
    (hsome : ∀ r n i0, g n = some i0 → ∀ i', st r n i' = if i' = i0 then f (r i0) (v n) else r i')
    (hnone : ∀ r n, g n = none → st r n = r)
    (i : ι) (n : κ) (hn : g n = some i) (L₁ L₂ : List κ)
    (h₁ : ∀ m ∈ L₁, g m ≠ some i) (h₂ : ∀ m ∈ L₂, g m ≠ some i) (r : ι → α) :
    (L₁ ++ n :: L₂).foldl st r i = f (r i) (v n) := by
  rw [List.foldl_append, List.foldl_cons, foldl_miss g st f v hsome hnone i L₂ h₂, hsome _ n i hn i, if_pos rfl,
    foldl_miss g st f v hsome hnone i L₁ h₁]

end Fold

section Scatter

variable {s si u : Shape} {w : Nat} {α : Type}

-- the scatter is such a fold over the update positions
theorem scatter_miss (d : ScatterDims s si u) (f : α → α → α) (x : s.Idx → α) (idx : IVec si w) (upd : u.Idx → α) (i : s.Idx)
    (hmiss : ∀ j, d.resultIdx? j idx ≠ some i) : Host.scatter d f x idx upd i = x i := by
  unfold Host.scatter
  refine foldl_miss (fun n => d.resultIdx? (u.rowMajor.symm n) idx) _ f (fun n => upd (u.rowMajor.symm n)) ?_ ?_ i _
    (fun n _ => hmiss _) x
  · intro r n i0 h i'
    simp only [h]
  · intro r n h
    simp only [h]

theorem scatter_hit (d : ScatterDims s si u) (f : α → α → α) (x : s.Idx → α) (idx : IVec si w) (upd : u.Idx → α) (i : s.Idx)
    (j : u.Idx) (hj : d.resultIdx? j idx = some i) (huniq : ∀ j', d.resultIdx? j' idx = some i → j' = j) :
    Host.scatter d f x idx upd i = f (x i) (upd j) := by
  unfold Host.scatter
  obtain ⟨L₁, L₂, hsplit⟩ := List.append_of_mem (List.mem_finRange (u.rowMajor j))
  have hnd : (L₁ ++ u.rowMajor j :: L₂).Nodup := hsplit ▸ List.nodup_finRange _
  have hne : ∀ m, m ≠ u.rowMajor j → d.resultIdx? (u.rowMajor.symm m) idx ≠ some i := by
    intro m hm h
    exact hm (by rw [← huniq _ h, Equiv.apply_symm_apply])
  have h₁ : ∀ m ∈ L₁, d.resultIdx? (u.rowMajor.symm m) idx ≠ some i := by
    intro m hm
    refine hne m ?_
    rintro rfl
    exact (List.nodup_append.1 hnd).2.2 _ hm _ (List.mem_cons_self ..) rfl
  have h₂ : ∀ m ∈ L₂, d.resultIdx? (u.rowMajor.symm m) idx ≠ some i := by
    intro m hm
    refine hne m ?_
    rintro rfl
    exact (List.nodup_cons.1 (List.nodup_append.1 hnd).2.1).1 hm
  rw [hsplit, show upd j = upd (u.rowMajor.symm (u.rowMajor j)) by rw [Equiv.symm_apply_apply]]
  refine foldl_hit (fun n => d.resultIdx? (u.rowMajor.symm n) idx) _ f (fun n => upd (u.rowMajor.symm n)) ?_ ?_ i
    (u.rowMajor j) ?_ L₁ L₂ h₁ h₂ x
  · intro r n i0 h i'
    simp only [h]
  · intro r n h
    simp only [h]
  · show d.resultIdx? (u.rowMajor.symm (u.rowMajor j)) idx = some i
    rw [Equiv.symm_apply_apply]
    exact hj

end Scatter

section Landing

abbrev SD : ScatterDims S256x256x256 S1 S256x255x256 := scatter_S256x256x256_S1_S256x255x256_012_n_1_0

theorem start_0 (idx : IVec S1 32) (j : S256x255x256.Idx) : SD.start j idx ⟨0, by decide⟩ = 0 := by
  unfold ScatterDims.start
  rw [dif_neg (by decide)]

theorem start_2 (idx : IVec S1 32) (j : S256x255x256.Idx) : SD.start j idx ⟨2, by decide⟩ = 0 := by
  unfold ScatterDims.start
  rw [dif_neg (by decide)]

theorem start_1 (idx : IVec S1 32) (hidx : ∀ i, idx i = 1#32) (j : S256x255x256.Idx) : SD.start j idx ⟨1, by decide⟩ = 1 := by
  unfold ScatterDims.start
  rw [dif_pos (by decide), hidx]
  decide

theorem window_0 (j : S256x255x256.Idx) : SD.window j ⟨0, by decide⟩ = (j 0).val := by
  unfold ScatterDims.window
  rw [dif_pos (by decide)]
  rfl

theorem window_1 (j : S256x255x256.Idx) : SD.window j ⟨1, by decide⟩ = (j 1).val := by
  unfold ScatterDims.window
  rw [dif_pos (by decide)]
  rfl

theorem window_2 (j : S256x255x256.Idx) : SD.window j ⟨2, by decide⟩ = (j 2).val := by
  unfold ScatterDims.window
  rw [dif_pos (by decide)]
  rfl

-- the update at (b, l', e) lands at (b, l' + 1, e), always inside the operand
theorem landing (idx : IVec S1 32) (hidx : ∀ i, idx i = 1#32) (b : Fin 256) (l' : Fin 255) (e : Fin 256) :
    SD.resultIdx? (ix3 b l' e) idx = some (ix3 b ⟨l'.val + 1, by omega⟩ e) := by
  have hcond : ∀ a, 0 ≤ SD.start (ix3 b l' e) idx a + SD.window (ix3 b l' e) a ∧
      SD.start (ix3 b l' e) idx a + SD.window (ix3 b l' e) a < S256x256x256.size a := by
    intro a
    match a with
    | ⟨0, _⟩ =>
      rw [start_0, window_0]
      show (0 : Int) ≤ 0 + (b.val : Int) ∧ (0 : Int) + (b.val : Int) < (256 : Nat)
      omega
    | ⟨1, _⟩ =>
      rw [start_1 idx hidx, window_1]
      show (0 : Int) ≤ 1 + (l'.val : Int) ∧ (1 : Int) + (l'.val : Int) < (256 : Nat)
      omega
    | ⟨2, _⟩ =>
      rw [start_2, window_2]
      show (0 : Int) ≤ 0 + (e.val : Int) ∧ (0 : Int) + (e.val : Int) < (256 : Nat)
      omega
  unfold ScatterDims.resultIdx?
  rw [dif_pos hcond]
  refine congrArg some (funext fun a => Fin.ext ?_)
  match a with
  | ⟨0, _⟩ =>
    show (SD.start (ix3 b l' e) idx ⟨0, by decide⟩ + SD.window (ix3 b l' e) ⟨0, by decide⟩).toNat = b.val
    rw [start_0, window_0]
    show ((0 : Int) + (b.val : Int)).toNat = b.val
    omega
  | ⟨1, _⟩ =>
    show (SD.start (ix3 b l' e) idx ⟨1, by decide⟩ + SD.window (ix3 b l' e) ⟨1, by decide⟩).toNat = l'.val + 1
    rw [start_1 idx hidx, window_1]
    show ((1 : Int) + (l'.val : Int)).toNat = l'.val + 1
    omega
  | ⟨2, _⟩ =>
    show (SD.start (ix3 b l' e) idx ⟨2, by decide⟩ + SD.window (ix3 b l' e) ⟨2, by decide⟩).toNat = e.val
    rw [start_2, window_2]
    show ((0 : Int) + (e.val : Int)).toNat = e.val
    omega

end Landing

section ChainScatter

-- position 0 receives nothing
theorem chainScatter_zero (x : FVec Ideal S256x256x256 .f32) (idx : IVec S1 32) (hidx : ∀ i, idx i = 1#32)
    (upd : FVec Ideal S256x255x256 .f32) (b e : Fin 256) :
    Host.scatter SD (FloatOps.addf (F := Ideal) (φ := .f32)) x idx upd (ix3 b (0 : Fin 256) e) = x (ix3 b (0 : Fin 256) e) := by
  refine scatter_miss SD _ x idx upd _ fun j h => ?_
  obtain ⟨b', l', e', rfl⟩ : ∃ (b' : Fin 256) (l' : Fin 255) (e' : Fin 256), j = ix3 b' l' e' :=
    ⟨j 0, j 1, j 2, eq_ix3 j⟩
  rw [landing idx hidx] at h
  have h1 : (⟨l'.val + 1, by omega⟩ : Fin 256) = (0 : Fin 256) := congrFun (Option.some.inj h) 1
  exact absurd (congrArg Fin.val h1) (Nat.succ_ne_zero _)

-- position l' + 1 receives position l''s update, once
theorem chainScatter_succ (x : FVec Ideal S256x256x256 .f32) (idx : IVec S1 32) (hidx : ∀ i, idx i = 1#32)
    (upd : FVec Ideal S256x255x256 .f32) (b : Fin 256) (l' : Fin 255) (e : Fin 256) :
    Host.scatter SD (FloatOps.addf (F := Ideal) (φ := .f32)) x idx upd (ix3 b (⟨l'.val + 1, by omega⟩ : Fin 256) e)
      = x (ix3 b (⟨l'.val + 1, by omega⟩ : Fin 256) e) + upd (ix3 b l' e) := by
  refine scatter_hit SD _ x idx upd _ (ix3 b l' e) (landing idx hidx b l' e) fun j h => ?_
  obtain ⟨b', l'', e', rfl⟩ : ∃ (b' : Fin 256) (l'' : Fin 255) (e' : Fin 256), j = ix3 b' l'' e' :=
    ⟨j 0, j 1, j 2, eq_ix3 j⟩
  rw [landing idx hidx] at h
  have hh := Option.some.inj h
  have h0 : b' = b := congrFun hh 0
  have h1 : (⟨l''.val + 1, by omega⟩ : Fin 256) = ⟨l'.val + 1, by omega⟩ := congrFun hh 1
  have h2 : e' = e := congrFun hh 2
  have h1' : l'' = l' := Fin.ext (by have := congrArg Fin.val h1; simp only at this; omega)
  rw [h0, h1', h2]

end ChainScatter

section Literals

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_zero : Ideal.ofBits .f32 0x00000000#32 = 0 := by
  simp [Ideal.ofBits, Ideal.ieee]

-- x / 1 = x on every extended real
theorem div_one' (x : EReal) : Ideal.div x ((1 : ℝ) : EReal) = x := by
  rw [Ideal.div_coe one_ne_zero, div_one, EReal.coe_one, mul_one]

-- x / 2 = x · ½ on every extended real
theorem div_two (x : EReal) : Ideal.div x ((2 : ℝ) : EReal) = x * Cert.Spec.half :=
  Ideal.div_coe two_ne_zero x

end Literals

section Operands

def oneIdx : IVec S1 32 := broadcastInDim S1 ![] bcast_S_S1 (constantI S_ 32 1#32)

theorem oneIdx_apply (i : S1.Idx) : oneIdx i = 1#32 := by
  unfold oneIdx
  exact broadcastInDim_apply _ bcast_S_S1 _ i ix0 (fun a => a.elim0)

def degVec : FVec Ideal S256x256x256 .f32 :=
  broadcastInDim S256x256x256 ![0, 1, 2] bcast_S1x256x1_S256x256x256_0_1_2
    (broadcastInDim S1x256x1 ![1] bcast_S256_S1x256x1_1
      (concatenate S256 0
        [⟨S1, broadcastInDim S1 ![] bcast_S_S1 (constant (F := Ideal) S_ .f32 0x3F800000#32)⟩,
         ⟨S255, broadcastInDim S255 ![] bcast_S_S255 (constant (F := Ideal) S_ .f32 0x40000000#32)⟩]
        concatenates_S1_S255_S256_d0))

-- the in-degrees along the chain: 1 at position 0, 2 elsewhere
theorem degVec_apply (b l e : Fin 256) :
    degVec (ix3 b l e) = if l.val = 0 then ((1 : ℝ) : EReal) else ((2 : ℝ) : EReal) := by
  unfold degVec
  rw [broadcastInDim_apply _ bcast_S1x256x1_S256x256x256_0_1_2 _ (ix3 b l e) (ix3 (0 : Fin 1) l (0 : Fin 1)) (fun a => match a with
      | ⟨0, _⟩ => by show 0 = if (1 : Nat) = 1 then 0 else b.val; rw [if_pos rfl]
      | ⟨1, _⟩ => by show l.val = if (256 : Nat) = 1 then 0 else l.val; rw [if_neg (by decide)]
      | ⟨2, _⟩ => by show 0 = if (1 : Nat) = 1 then 0 else e.val; rw [if_pos rfl]),
    broadcastInDim_apply _ bcast_S256_S1x256x1_1 _ (ix3 (0 : Fin 1) l (0 : Fin 1)) (ix1 l) (fun a => match a with
      | ⟨0, _⟩ => by show l.val = if (256 : Nat) = 1 then 0 else l.val; rw [if_neg (by decide)])]
  by_cases hl : l.val = 0
  · rw [if_pos hl, concatenate_pair_apply_left (0 : Fin S256.rank) _ _ concatenates_S1_S255_S256_d0 (ix1 l) rfl
      (ix1 (0 : Fin 1)) (fun a => match a with
        | ⟨0, _⟩ => by show 0 = l.val; omega),
      broadcastInDim_apply _ bcast_S_S1 _ (ix1 (0 : Fin 1)) ix0 (fun a => a.elim0)]
    exact bits_one
  · rw [if_neg hl, concatenate_pair_apply_right (0 : Fin S256.rank) _ _ concatenates_S1_S255_S256_d0 (ix1 l) rfl rfl
      (ix1 (⟨l.val - 1, by omega⟩ : Fin 255)) (fun a ha => match a, ha with
        | ⟨0, _⟩, ha => (ha rfl).elim) (by show (l.val - 1) + 1 = l.val; omega),
      broadcastInDim_apply _ bcast_S_S255 _ (ix1 (⟨l.val - 1, by omega⟩ : Fin 255)) ix0 (fun a => a.elim0)]
    exact bits_two

def zeroVec : FVec Ideal S256x256x256 .f32 :=
  broadcastInDim S256x256x256 ![] bcast_S_S256x256x256 (constant (F := Ideal) S_ .f32 0x00000000#32)

theorem zeroVec_apply (i : S256x256x256.Idx) : zeroVec i = 0 := by
  unfold zeroVec
  rw [broadcastInDim_apply _ bcast_S_S256x256x256 _ i ix0 (fun a => a.elim0)]
  exact bits_zero

end Operands

section Dots

abbrev DS : DotDims S256x256x256 S256x256 S256x256x256 := dot_S256x256x256_S256x256_S256x256x256_2_0_01_1_n_n

abbrev DP : DotDims S256x255x256 S256x256 S256x255x256 := dot_S256x255x256_S256x256_S256x255x256_2_0_01_1_n_n

theorem DS_lhs_0 (i : S256x256x256.Idx) (q : DS.contr.Idx) : (DS.lhsIdx i q 0).val = (i 0).val := by
  unfold DotDims.lhsIdx
  rw [dif_neg (show ¬(0 : Fin S256x256x256.rank) ∈ DS.lhsBatch by decide),
    dif_pos (show (0 : Fin S256x256x256.rank) ∈ DS.lhsNonContracting by decide)]
  rfl
theorem DS_lhs_1 (i : S256x256x256.Idx) (q : DS.contr.Idx) : (DS.lhsIdx i q 1).val = (i 1).val := by
  unfold DotDims.lhsIdx
  rw [dif_neg (show ¬(1 : Fin S256x256x256.rank) ∈ DS.lhsBatch by decide),
    dif_pos (show (1 : Fin S256x256x256.rank) ∈ DS.lhsNonContracting by decide)]
  rfl
theorem DS_lhs_2 (i : S256x256x256.Idx) (q : DS.contr.Idx) :
    (DS.lhsIdx i q 2).val = (q ⟨0, by decide⟩).val :=
  DS.lhsIdx_val_of_single rfl i q
theorem DS_rhs_0 (i : S256x256x256.Idx) (q : DS.contr.Idx) :
    (DS.rhsIdx i q 0).val = (q ⟨0, by decide⟩).val :=
  DS.rhsIdx_val_of_single rfl i q
theorem DS_rhs_1 (i : S256x256x256.Idx) (q : DS.contr.Idx) : (DS.rhsIdx i q 1).val = (i 2).val := by
  unfold DotDims.rhsIdx
  rw [dif_neg (show ¬(1 : Fin S256x256.rank) ∈ DS.rhsBatch by decide),
    dif_pos (show (1 : Fin S256x256.rank) ∈ DS.rhsNonContracting by decide)]
  rfl

theorem DP_lhs_0 (i : S256x255x256.Idx) (q : DP.contr.Idx) : (DP.lhsIdx i q 0).val = (i 0).val := by
  unfold DotDims.lhsIdx
  rw [dif_neg (show ¬(0 : Fin S256x255x256.rank) ∈ DP.lhsBatch by decide),
    dif_pos (show (0 : Fin S256x255x256.rank) ∈ DP.lhsNonContracting by decide)]
  rfl
theorem DP_lhs_1 (i : S256x255x256.Idx) (q : DP.contr.Idx) : (DP.lhsIdx i q 1).val = (i 1).val := by
  unfold DotDims.lhsIdx
  rw [dif_neg (show ¬(1 : Fin S256x255x256.rank) ∈ DP.lhsBatch by decide),
    dif_pos (show (1 : Fin S256x255x256.rank) ∈ DP.lhsNonContracting by decide)]
  rfl
theorem DP_lhs_2 (i : S256x255x256.Idx) (q : DP.contr.Idx) :
    (DP.lhsIdx i q 2).val = (q ⟨0, by decide⟩).val :=
  DP.lhsIdx_val_of_single rfl i q
theorem DP_rhs_0 (i : S256x255x256.Idx) (q : DP.contr.Idx) :
    (DP.rhsIdx i q 0).val = (q ⟨0, by decide⟩).val :=
  DP.rhsIdx_val_of_single rfl i q
theorem DP_rhs_1 (i : S256x255x256.Idx) (q : DP.contr.Idx) : (DP.rhsIdx i q 1).val = (i 2).val := by
  unfold DotDims.rhsIdx
  rw [dif_neg (show ¬(1 : Fin S256x256.rank) ∈ DP.rhsBatch by decide),
    dif_pos (show (1 : Fin S256x256.rank) ∈ DP.rhsNonContracting by decide)]
  rfl

-- a contraction over the feature axis is the sum of 256 products
theorem dotSelf_apply (y0 : FVec Ideal S256x256x256 .f32) (y1 : FVec Ideal S256x256 .f32) (b : Fin 256) (l : Fin 256) (e : Fin 256) :
    Host.dotGeneral (F := Ideal) DS none y0 y1 (ix3 b l e) = ∑ k : Fin 256, y0 (ix3 b l k) * y1 (ix2 k e) := by
  simp only [Host.dotGeneral]
  rw [Ideal.dotGeneral_apply, ← Equiv.sum_comp (contrEquiv1 DS 256 rfl rfl).symm]
  refine Finset.sum_congr rfl fun k _ => ?_
  have hk := contrEquiv1_symm_val DS 256 rfl rfl k
  have el : DS.lhsIdx (ix3 b l e) ((contrEquiv1 DS 256 rfl rfl).symm k) = ix3 b l k := funext fun a => Fin.ext (by
    match a with
    | ⟨0, _⟩ => exact DS_lhs_0 _ _
    | ⟨1, _⟩ => exact DS_lhs_1 _ _
    | ⟨2, _⟩ => exact (DS_lhs_2 _ _).trans hk)
  have er : DS.rhsIdx (ix3 b l e) ((contrEquiv1 DS 256 rfl rfl).symm k) = ix2 k e := funext fun a => Fin.ext (by
    match a with
    | ⟨0, _⟩ => exact (DS_rhs_0 _ _).trans hk
    | ⟨1, _⟩ => exact DS_rhs_1 _ _)
  rw [el, er]

theorem dotPrev_apply (y0 : FVec Ideal S256x255x256 .f32) (y1 : FVec Ideal S256x256 .f32) (b : Fin 256) (l' : Fin 255) (e : Fin 256) :
    Host.dotGeneral (F := Ideal) DP none y0 y1 (ix3 b l' e) = ∑ k : Fin 256, y0 (ix3 b l' k) * y1 (ix2 k e) := by
  simp only [Host.dotGeneral]
  rw [Ideal.dotGeneral_apply, ← Equiv.sum_comp (contrEquiv1 DP 256 rfl rfl).symm]
  refine Finset.sum_congr rfl fun k _ => ?_
  have hk := contrEquiv1_symm_val DP 256 rfl rfl k
  have el : DP.lhsIdx (ix3 b l' e) ((contrEquiv1 DP 256 rfl rfl).symm k) = ix3 b l' k := funext fun a => Fin.ext (by
    match a with
    | ⟨0, _⟩ => exact DP_lhs_0 _ _
    | ⟨1, _⟩ => exact DP_lhs_1 _ _
    | ⟨2, _⟩ => exact (DP_lhs_2 _ _).trans hk)
  have er : DP.rhsIdx (ix3 b l' e) ((contrEquiv1 DP 256 rfl rfl).symm k) = ix2 k e := funext fun a => Fin.ext (by
    match a with
    | ⟨0, _⟩ => exact (DP_rhs_0 _ _).trans hk
    | ⟨1, _⟩ => exact DP_rhs_1 _ _)
  rw [el, er]

theorem dropLast_apply (h : FVec Ideal S256x256x256 .f32) (b : Fin 256) (l' : Fin 255) (k : Fin 256) :
    extractStridedSlice S256x255x256 ![0, 0, 0] h slices_S256x256x256_S256x255x256_0_0_0 (ix3 b l' k)
      = h (ix3 b (⟨l'.val, by omega⟩ : Fin 256) k) :=
  extractStridedSlice_apply ![0, 0, 0] h slices_S256x256x256_S256x255x256_0_0_0 (ix3 b l' k)
    (ix3 b (⟨l'.val, by omega⟩ : Fin 256) k) (fun a => match a with
      | ⟨0, _⟩ => by show b.val = 0 + b.val; omega
      | ⟨1, _⟩ => by show l'.val = 0 + l'.val; omega
      | ⟨2, _⟩ => by show k.val = 0 + k.val; omega)

end Dots

section Layer

-- the operations of one layer, as a function of the incoming state and the two weight matrices
def layerOps (h : FVec Ideal S256x256x256 .f32) (W3 W1 : FVec Ideal S256x256 .f32) : FVec Ideal S256x256x256 .f32 :=
  maximumf
    (Host.divf
      (Host.scatter SD (FloatOps.addf (F := Ideal) (φ := .f32)) (Host.dotGeneral (F := Ideal) DS none h W3) oneIdx
        (Host.dotGeneral (F := Ideal) DP none
          (extractStridedSlice S256x255x256 ![0, 0, 0] h slices_S256x256x256_S256x255x256_0_0_0) W1))
      degVec)
    zeroVec

-- read at a cell they are the specification's layer: the same sums of the same products, no finiteness needed
theorem layerOps_eq (W : FVec Ideal Cert.Spec.TW .f32) (n : Fin 10) (h : FVec Ideal S256x256x256 .f32)
    (W3 W1 : FVec Ideal S256x256 .f32)
    (hW3 : ∀ k e : Fin 256, W3 (ix2 k e) = W (ix4 n (3 : Fin 24) k e))
    (hW1 : ∀ k e : Fin 256, W1 (ix2 k e) = W (ix4 n (1 : Fin 24) k e)) :
    layerOps h W3 W1 = Cert.Spec.layer W n h := by
  funext j
  obtain ⟨b, l, e, rfl⟩ : ∃ b l e : Fin 256, j = ix3 b l e := ⟨j 0, j 1, j 2, eq_ix3 j⟩
  show max (Ideal.div (Host.scatter SD (FloatOps.addf (F := Ideal) (φ := .f32)) (Host.dotGeneral (F := Ideal) DS none h W3) oneIdx
        (Host.dotGeneral (F := Ideal) DP none
          (extractStridedSlice S256x255x256 ![0, 0, 0] h slices_S256x256x256_S256x255x256_0_0_0) W1) (ix3 b l e))
      (degVec (ix3 b l e))) (zeroVec (ix3 b l e)) = Cert.Spec.layerAt W n h b l e
  rw [zeroVec_apply, degVec_apply]
  unfold Cert.Spec.layerAt
  by_cases hl : l.val = 0
  · have hl0 : l = (0 : Fin 256) := Fin.ext hl
    subst hl0
    rw [dif_pos hl, if_pos hl, chainScatter_zero _ _ oneIdx_apply, div_one', dotSelf_apply]
    unfold Cert.Spec.selfMsg
    simp only [hW3]
  · obtain ⟨l', rfl⟩ : ∃ l' : Fin 255, l = (⟨l'.val + 1, by omega⟩ : Fin 256) :=
      ⟨⟨l.val - 1, by omega⟩, Fin.ext (by show l.val = l.val - 1 + 1; omega)⟩
    rw [dif_neg hl, if_neg hl, chainScatter_succ _ _ oneIdx_apply, div_two, dotSelf_apply, dotPrev_apply]
    unfold Cert.Spec.selfMsg Cert.Spec.prevMsg
    simp only [hW3, hW1, dropLast_apply]
    rfl

end Layer

section Weights

theorem slice_layer (n : Nat) (hn : n < 10) : S10x24x256x256.Slices ![n, 0, 0, 0] S1x24x256x256 :=
  ⟨rfl, fun a => match a with
    | ⟨0, _⟩ => by show n + 1 ≤ 10; omega
    | ⟨1, _⟩ => by show 0 + 24 ≤ 24; omega
    | ⟨2, _⟩ => by show 0 + 256 ≤ 256; omega
    | ⟨3, _⟩ => by show 0 + 256 ≤ 256; omega⟩

/-- relation r of layer n, cut out of the weight array: take the layer, drop its unit axis, take the relation, drop its unit axis -/
def wrel (x2 : FVec Ideal S10x24x256x256 .f32) (n : Nat) (hn : n < 10) (r : Nat)
    (hs' : S24x256x256.Slices ![r, 0, 0] S1x256x256) : FVec Ideal S256x256 .f32 :=
  shapeCast S256x256
    (extractStridedSlice S1x256x256 ![r, 0, 0]
      (shapeCast S24x256x256 (extractStridedSlice S1x24x256x256 ![n, 0, 0, 0] x2 (slice_layer n hn))
        shapeCasts_S1x24x256x256_S24x256x256)
      hs')
    shapeCasts_S1x256x256_S256x256

theorem wrel_apply (x2 : FVec Ideal S10x24x256x256 .f32) (n : Nat) (hn : n < 10) (r : Nat) (hr : r < 24)
    (hs' : S24x256x256.Slices ![r, 0, 0] S1x256x256) (k e : Fin 256) :
    wrel x2 n hn r hs' (ix2 k e) = x2 (ix4 (⟨n, hn⟩ : Fin 10) (⟨r, hr⟩ : Fin 24) k e) := by
  unfold wrel
  rw [shapeCast_apply _ shapeCasts_S1x256x256_S256x256 (ix2 k e) (ix3 (0 : Fin 1) k e)
      (by rewrite [Shape.rowMajor_val_three, Shape.rowMajor_val_two]
          show (0 * 256 + k.val) * 256 + e.val = k.val * 256 + e.val
          omega),
    extractStridedSlice_apply ![r, 0, 0] _ hs' (ix3 (0 : Fin 1) k e) (ix3 (⟨r, hr⟩ : Fin 24) k e) (fun a => match a with
      | ⟨0, _⟩ => by show r = r + 0; omega
      | ⟨1, _⟩ => by show k.val = 0 + k.val; omega
      | ⟨2, _⟩ => by show e.val = 0 + e.val; omega),
    shapeCast_apply _ shapeCasts_S1x24x256x256_S24x256x256 (ix3 (⟨r, hr⟩ : Fin 24) k e)
      (ix4 (0 : Fin 1) (⟨r, hr⟩ : Fin 24) k e)
      (by rewrite [Shape.rowMajor_val_four, Shape.rowMajor_val_three]
          show ((0 * 24 + r) * 256 + k.val) * 256 + e.val = (r * 256 + k.val) * 256 + e.val
          omega),
    extractStridedSlice_apply ![n, 0, 0, 0] x2 (slice_layer n hn) (ix4 (0 : Fin 1) (⟨r, hr⟩ : Fin 24) k e)
      (ix4 (⟨n, hn⟩ : Fin 10) (⟨r, hr⟩ : Fin 24) k e) (fun a => match a with
      | ⟨0, _⟩ => by show n = n + 0; omega
      | ⟨1, _⟩ => by show r = 0 + r; omega
      | ⟨2, _⟩ => by show k.val = 0 + k.val; omega
      | ⟨3, _⟩ => by show e.val = 0 + e.val; omega)]

/-- layer n of the program, on the incoming state h -/
def layerN (x2 : FVec Ideal S10x24x256x256 .f32) (n : Nat) (hn : n < 10) (h : FVec Ideal S256x256x256 .f32) :
    FVec Ideal S256x256x256 .f32 :=
  layerOps h (wrel x2 n hn 3 slices_S24x256x256_S1x256x256_3_0_0) (wrel x2 n hn 1 slices_S24x256x256_S1x256x256_1_0_0)

theorem layerN_eq (x2 : FVec Ideal S10x24x256x256 .f32) (n : Nat) (hn : n < 10) (h : FVec Ideal S256x256x256 .f32) :
    layerN x2 n hn h = Cert.Spec.layer x2 ⟨n, hn⟩ h :=
  layerOps_eq x2 ⟨n, hn⟩ h _ _ (fun k e => wrel_apply x2 n hn 3 (by decide) _ k e)
    (fun k e => wrel_apply x2 n hn 1 (by decide) _ k e)

end Weights

section Output

/-- the embedding lookup: an id below zero is moved up by the table's length, then the rows are gathered -/
def lookup (x0 : IVec S256x256 32) (x1 : FVec Ideal S32000x256 .f32) : FVec Ideal S256x256x256 .f32 :=
  Host.gather gather_S32000x256_S256x256x1_S256x256x256_2_0_n_n_0_2_1256 x1
    (broadcastInDim S256x256x1 ![0, 1] bcast_S256x256_S256x256x1_0_1
      (select (cmpi .slt x0 (broadcastInDim S256x256 ![] bcast_S_S256x256 (constantI S_ 32 0#32)))
        (addi x0 (broadcastInDim S256x256 ![] bcast_S_S256x256 (constantI S_ 32 32000#32))) x0))

abbrev DO : DotDims S256x256 S256x32000 S256x32000 := dot_S256x256_S256x32000_S256x32000_1_0_0_1_n_n

theorem DO_lhs_0 (i : S256x32000.Idx) (q : DO.contr.Idx) : (DO.lhsIdx i q 0).val = (i 0).val := by
  unfold DotDims.lhsIdx
  rw [dif_neg (show ¬(0 : Fin S256x256.rank) ∈ DO.lhsBatch by decide),
    dif_pos (show (0 : Fin S256x256.rank) ∈ DO.lhsNonContracting by decide)]
  rfl
theorem DO_lhs_1 (i : S256x32000.Idx) (q : DO.contr.Idx) : (DO.lhsIdx i q 1).val = (q ⟨0, by decide⟩).val :=
  DO.lhsIdx_val_of_single rfl i q
theorem DO_rhs_0 (i : S256x32000.Idx) (q : DO.contr.Idx) : (DO.rhsIdx i q 0).val = (q ⟨0, by decide⟩).val :=
  DO.rhsIdx_val_of_single rfl i q
theorem DO_rhs_1 (i : S256x32000.Idx) (q : DO.contr.Idx) : (DO.rhsIdx i q 1).val = (i 1).val := by
  unfold DotDims.rhsIdx
  rw [dif_neg (show ¬(1 : Fin S256x32000.rank) ∈ DO.rhsBatch by decide),
    dif_pos (show (1 : Fin S256x32000.rank) ∈ DO.rhsNonContracting by decide)]
  rfl

theorem dotOut_apply (y0 : FVec Ideal S256x256 .f32) (y1 : FVec Ideal S256x32000 .f32) (b : Fin 256) (v : Fin 32000) :
    Host.dotGeneral (F := Ideal) DO none y0 y1 (ix2 b v) = ∑ k : Fin 256, y0 (ix2 b k) * y1 (ix2 k v) := by
  simp only [Host.dotGeneral]
  rw [Ideal.dotGeneral_apply, ← Equiv.sum_comp (contrEquiv1 DO 256 rfl rfl).symm]
  refine Finset.sum_congr rfl fun k _ => ?_
  have hk := contrEquiv1_symm_val DO 256 rfl rfl k
  have el : DO.lhsIdx (ix2 b v) ((contrEquiv1 DO 256 rfl rfl).symm k) = ix2 b k := funext fun a => Fin.ext (by
    match a with
    | ⟨0, _⟩ => exact DO_lhs_0 _ _
    | ⟨1, _⟩ => exact (DO_lhs_1 _ _).trans hk)
  have er : DO.rhsIdx (ix2 b v) ((contrEquiv1 DO 256 rfl rfl).symm k) = ix2 k v := funext fun a => Fin.ext (by
    match a with
    | ⟨0, _⟩ => exact (DO_rhs_0 _ _).trans hk
    | ⟨1, _⟩ => exact DO_rhs_1 _ _)
  rw [el, er]

/-- the output projection of the program, on the final state h -/
def proj (h : FVec Ideal S256x256x256 .f32) (x3 : FVec Ideal S32000x256 .f32) (x4 : FVec Ideal S32000 .f32) :
    FVec Ideal S256x32000 .f32 :=
  addf
    (Host.dotGeneral (F := Ideal) DO none
      (shapeCast S256x256 (extractStridedSlice S256x1x256 ![0, 255, 0] h slices_S256x256x256_S256x1x256_0_255_0)
        shapeCasts_S256x1x256_S256x256)
      (transpose S256x32000 [1, 0] x3 transposes_S32000x256_S256x32000_1_0))
    (broadcastInDim S256x32000 ![0, 1] bcast_S1x32000_S256x32000_0_1
      (broadcastInDim S1x32000 ![1] bcast_S32000_S1x32000_1 x4))

theorem proj_apply (h : FVec Ideal S256x256x256 .f32) (x3 : FVec Ideal S32000x256 .f32) (x4 : FVec Ideal S32000 .f32)
    (b : Fin 256) (v : Fin 32000) :
    proj h x3 x4 (ix2 b v) = (∑ k : Fin 256, h (ix3 b (255 : Fin 256) k) * x3 (ix2 v k)) + x4 (ix1 v) := by
  unfold proj
  show (_ : EReal) + (_ : EReal) = _
  rw [dotOut_apply,
    broadcastInDim_apply _ bcast_S1x32000_S256x32000_0_1 _ (ix2 b v) (ix2 (0 : Fin 1) v) (fun a => match a with
      | ⟨0, _⟩ => by show 0 = if (1 : Nat) = 1 then 0 else b.val; rw [if_pos rfl]
      | ⟨1, _⟩ => by show v.val = if (32000 : Nat) = 1 then 0 else v.val; rw [if_neg (by decide)]),
    broadcastInDim_apply _ bcast_S32000_S1x32000_1 x4 (ix2 (0 : Fin 1) v) (ix1 v) (fun a => match a with
      | ⟨0, _⟩ => by show v.val = if (32000 : Nat) = 1 then 0 else v.val; rw [if_neg (by decide)])]
  refine congrArg (· + x4 (ix1 v)) (Finset.sum_congr rfl fun k _ => ?_)
  rw [shapeCast_apply _ shapeCasts_S256x1x256_S256x256 (ix2 b k) (ix3 b (0 : Fin 1) k)
      (by rewrite [Shape.rowMajor_val_three, Shape.rowMajor_val_two]
          show (b.val * 1 + 0) * 256 + k.val = b.val * 256 + k.val
          omega),
    extractStridedSlice_apply ![0, 255, 0] h slices_S256x256x256_S256x1x256_0_255_0 (ix3 b (0 : Fin 1) k)
      (ix3 b (255 : Fin 256) k) (fun a => match a with
      | ⟨0, _⟩ => by show b.val = 0 + b.val; omega
      | ⟨1, _⟩ => by show 255 = 255 + 0; omega
      | ⟨2, _⟩ => by show k.val = 0 + k.val; omega),
    transpose_apply [1, 0] x3 transposes_S32000x256_S256x32000_1_0 (ix2 k v) (ix2 v k) (fun a => match a with
      | ⟨0, _⟩ => rfl
      | ⟨1, _⟩ => rfl)]

/-- the program's value: the lookup, the ten layers in order, the projection -/
def value (x0 : IVec S256x256 32) (x1 : FVec Ideal S32000x256 .f32) (x2 : FVec Ideal S10x24x256x256 .f32)
    (x3 : FVec Ideal S32000x256 .f32) (x4 : FVec Ideal S32000 .f32) : FVec Ideal S256x32000 .f32 :=
  proj (layerN x2 9 (by decide) (layerN x2 8 (by decide) (layerN x2 7 (by decide) (layerN x2 6 (by decide)
    (layerN x2 5 (by decide) (layerN x2 4 (by decide) (layerN x2 3 (by decide) (layerN x2 2 (by decide)
    (layerN x2 1 (by decide) (layerN x2 0 (by decide) (lookup x0 x1))))))))))) x3 x4

-- ten layers and the projection, each read at a cell, are the specification's result
theorem value_eq (x0 : IVec S256x256 32) (x1 : FVec Ideal S32000x256 .f32) (x2 : FVec Ideal S10x24x256x256 .f32)
    (x3 : FVec Ideal S32000x256 .f32) (x4 : FVec Ideal S32000 .f32) :
    value x0 x1 x2 x3 x4 = Cert.Spec.result (lookup x0 x1) x2 x3 x4 := by
  funext j
  obtain ⟨b, v, rfl⟩ : ∃ (b : Fin 256) (v : Fin 32000), j = ix2 b v := ⟨j 0, j 1, eq_ix2 j⟩
  unfold value
  simp only [proj_apply, layerN_eq]
  rfl

end Output

end Cert.RefBridge

end
-- ==== Proof.HostK.lean ====
import proofs.«415765_j59210419143216_1_alg».proof.Proof.Gen.KernelIdeal.Regions
import proofs.«415765_j59210419143216_1_alg».proof.Defs
import proofs.«415765_j59210419143216_1_alg».proof.Proof.Gen.Pre_finite_inputs
import proofs.«415765_j59210419143216_1_alg».proof.Proof.Gen.ReferenceIdeal
import proofs.«415765_j59210419143216_1_alg».proof.Proof.RefValue
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

noncomputable section

namespace Cert.KernelIdeal.HostK

open Idealize.ShloMosaic Idealize.ShloMosaic.TcCoe Idealize.ShloMosaic.ValueIdx
open Cert.KernelIdeal Cert.KernelIdeal.Gen

section Take

variable (x : IVec S256x256 32) (X : FVec Ideal S32000x256 .f32)

def normIdx : IVec S256x256 32 :=
  select (cmpi .slt x (broadcastInDim S256x256 ![] bcast_S_S256x256 (constantI S_ 32 0#32)))
    (addi x (broadcastInDim S256x256 ![] bcast_S_S256x256 (constantI S_ 32 32000#32))) x

def startIdx : IVec S256x256x1 32 :=
  broadcastInDim S256x256x1 ![0, 1] bcast_S256x256_S256x256x1_0_1 (normIdx x)

def inRange : IVec S256x256x1 1 :=
  andi (cmpi .sge (startIdx x) (broadcastInDim S256x256x1 ![] bcast_S_S256x256x1 (constantI S_ 32 0#32)))
    (cmpi .sle (startIdx x) (broadcastInDim S256x256x1 ![0, 1, 2] bcast_S1x1x1_S256x256x1_0_1_2
      (broadcastInDim S1x1x1 ![2] bcast_S1_S1x1x1_2 (constantI S1 32 31999#32))))

def rowOk : IVec S256x256 1 :=
  Host.reduce IntOp.andi (inRange x) (constantI S_ 1 1#1) reducesTo_S256x256x1_S256x256_d2 h_S_

def gathered : FVec Ideal S256x256x256 .f32 :=
  Host.gather gather_S32000x256_S256x256x1_S256x256x256_2_0_n_n_0_2_1256 X (startIdx x)

def taken : FVec Ideal S256x256x256 .f32 :=
  select (broadcastInDim S256x256x256 ![0, 1] bcast_S256x256_S256x256x256_0_1 (rowOk x)) (gathered x X)
    (broadcastInDim S256x256x256 ![] bcast_S_S256x256x256 (constant (F := Ideal) S_ .f32 0x7FC00000#32))

end Take

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1)
    (j : t.Idx) : Host.reduce IntOp.andi x init h hu j = 1#1 := by
  rw [Host.reduce_eq_foldl, hi]
  exact foldl_andi_one x hx _

theorem word_in_range (w : BitVec 32) (h0 : IntOp.cmpi .sge w 0#32 = 1#1) (h1 : IntOp.cmpi .slt w 32000#32 = 1#1) :
    IntOp.cmpi .slt w 0#32 = 0#1 ∧ IntOp.cmpi .sle w 31999#32 = 1#1 := by
  unfold IntOp.cmpi at h0 h1 ⊢
  rw [StableHlo.Predicate.ofBool_eq_one_iff] at h0 h1
  simp only [BitVec.slt, BitVec.sle, decide_eq_true_eq] at h0 h1 ⊢
  have z : (0#32 : BitVec 32).toInt = 0 := by decide
  have a : (32000#32 : BitVec 32).toInt = 32000 := by decide
  have b : (31999#32 : BitVec 32).toInt = 31999 := by decide
  rw [z] at h0 ⊢
  rw [a] at h1
  rw [b]
  constructor
  · rw [decide_eq_false (by omega)]; rfl
  · rw [decide_eq_true (by omega)]; rfl

section TakeInRange

variable (x : IVec S256x256 32) (X : FVec Ideal S32000x256 .f32)

theorem normIdx_apply (k : S256x256.Idx) :
    normIdx x k = Scalar.select (IntOp.cmpi .slt (x k) 0#32) (IntOp.addi (x k) 32000#32) (x k) := rfl

theorem startIdx_apply (i : S256x256x1.Idx) : startIdx x i = normIdx x (ix2 (i 0) (i 1)) := by
  unfold startIdx
  refine broadcastInDim_apply _ _ _ i _ fun a => ?_
  match a with
  | ⟨0, _⟩ => rfl
  | ⟨1, _⟩ => rfl

theorem inRange_apply (i : S256x256x1.Idx) :
    inRange x i = IntOp.andi (IntOp.cmpi .sge (startIdx x i) 0#32) (IntOp.cmpi .sle (startIdx x i) 31999#32) := rfl

variable (hx : ∀ k : S256x256.Idx, IntOp.cmpi .sge (x k) 0#32 = 1#1 ∧ IntOp.cmpi .slt (x k) 32000#32 = 1#1)
include hx

theorem normIdx_eq (k : S256x256.Idx) : normIdx x k = x k := by
  rw [normIdx_apply, (word_in_range _ (hx k).1 (hx k).2).1, select_zero]

theorem inRange_eq (i : S256x256x1.Idx) : inRange x i = 1#1 := by
  have h := hx (ix2 (i 0) (i 1))
  rw [inRange_apply, startIdx_apply, normIdx_eq x hx, h.1, (word_in_range _ h.1 h.2).2]
  decide

theorem rowOk_eq (k : S256x256.Idx) : rowOk x k = 1#1 :=
  reduce_andi_one _ _ _ _ (inRange_eq x hx) rfl k

-- with every id in [0, 32000) the out-of-range fill never binds: the masked lookup is the plain gather
theorem taken_eq : taken x X = gathered x X := by
  funext j
  have hm : broadcastInDim S256x256x256 ![0, 1] bcast_S256x256_S256x256x256_0_1 (rowOk x) j = rowOk x (ix2 (j 0) (j 1)) :=
    broadcastInDim_apply _ _ _ j _ fun a => by
      match a with
      | ⟨0, _⟩ => rfl
      | ⟨1, _⟩ => rfl
  unfold taken
  rw [select_apply, hm, rowOk_eq x hx, select_one]

end TakeInRange

variable (m : (ℓ : Loc nD τ sig) → Buf (Elt Ideal) ℓ) (outs : Outs (F := Ideal))

instance : Subsingleton (⟨0, ![]⟩ : Shape).Idx := ⟨fun a b => funext fun d => d.elim0⟩

-- the precondition puts every id in range
theorem idx_of_pre (hpre : Cert.Pre_KernelIdeal (hPre_finite_inputs := Cert.Pre_finite_inputs.Gen.facts) m) (c : Dev nD)
    (k : S256x256.Idx) :
    IntOp.cmpi .sge ((m ((c.tc : Thread nD τ).loc main_arg0) : IVec S256x256 32) k) 0#32 = 1#1
      ∧ IntOp.cmpi .slt ((m ((c.tc : Thread nD τ).loc main_arg0) : IVec S256x256 32) k) 32000#32 = 1#1 := by
  have e := congrFun (hpre c) ValueIdx.ix0
  unfold Cert.Pre_finite_inputs.fn Cert.Pre_finite_inputs.fn_part1 at e
  dsimp only at e
  have e2 := (IntOp.andi_eq_one.1 e).2
  have e3 := Host.reduce_andi_all _ _ _ _ _ e2 k
  exact IntOp.andi_eq_one.1 e3

theorem v0_kept (c : Dev nD) : V4 m outs c main_v5 = outs 3 main_v5 c := by
  rw [V4_of m outs c main_v5 (by decide)]
  simp only [V3, Function.update_self]

theorem wout_kept (c : Dev nD) : V4 m outs c main_arg3 = m ((c.tc : Thread nD τ).loc main_arg3) :=
  (V4_of m outs c main_arg3 (by decide)).trans <| (V3_of m outs c main_arg3 (by decide)).trans <|
    (V2_of m c main_arg3 (by decide)).trans <| (V1_of m c main_arg3 (by decide)).trans rfl

theorem bias_apply (c : Dev nD) (v : Fin 32000) :
    (V4 m outs c main_v6 : FVec Ideal S1x32000 .f32) (ix2 (0 : Fin 1) v)
      = (m ((c.tc : Thread nD τ).loc main_arg4) : FVec Ideal S32000 .f32) (ix1 v) := by
  have e : (V4 m outs c main_v6 : FVec Ideal S1x32000 .f32)
      = shapeCast S1x32000 (V3 m outs c main_arg4 : FVec Ideal S32000 .f32) shapeCasts_S32000_S1x32000 := by
    dsimp only [V4]
    simp only [hostOps1]
    after_results
    rfl
  rw [e, shapeCast_a_1a_apply, V3_of m outs c main_arg4 (by decide), V2_of m c main_arg4 (by decide),
    V1_of m c main_arg4 (by decide)]

theorem slice_reshape_apply (W : FVec Ideal S10x24x256x256 .f32) (r : Nat) (hr : r < 24)
    (hs : S10x24x256x256.Slices ![0, r, 0, 0] S10x1x256x256) (n : Fin 10) (k e : Fin 256) :
    shapeCast S10x256x256 (extractStridedSlice S10x1x256x256 ![0, r, 0, 0] W hs) shapeCasts_S10x1x256x256_S10x256x256 (ix3 n k e)
      = W (ix4 n (⟨r, hr⟩ : Fin 24) k e) := by
  refine (shapeCast_apply _ shapeCasts_S10x1x256x256_S10x256x256 (ix3 n k e) (ix4 n (0 : Fin 1) k e) ?_).trans ?_
  · rw [Shape.rowMajor_val_four, Shape.rowMajor_val_three]
    show ((n.val * 1 + 0) * 256 + k.val) * 256 + e.val = (n.val * 256 + k.val) * 256 + e.val
    omega
  · exact slice4_axis1_apply r W hs n (0 : Fin 1) k e ⟨r, hr⟩ (by simp)

theorem wself_apply (c : Dev nD) (n : Fin 10) (k e : Fin 256) :
    (V2 m c main_v2 : FVec Ideal S10x256x256 .f32) (ix3 n k e)
      = (m ((c.tc : Thread nD τ).loc main_arg2) : FVec Ideal S10x24x256x256 .f32) (ix4 n (3 : Fin 24) k e) := by
  have e2 : (V2 m c main_v2 : FVec Ideal S10x256x256 .f32)
      = shapeCast S10x256x256 (extractStridedSlice S10x1x256x256 ![0, 3, 0, 0] (V1 m c main_arg2 : FVec Ideal S10x24x256x256 .f32)
          slices_S10x24x256x256_S10x1x256x256_0_3_0_0) shapeCasts_S10x1x256x256_S10x256x256 := by
    dsimp only [V2]
    simp only [hostOps0_1]
    after_results
    rfl
  rw [e2, slice_reshape_apply _ 3 (by decide), V1_of m c main_arg2 (by decide)]
  rfl

theorem wprev_apply (c : Dev nD) (n : Fin 10) (k e : Fin 256) :
    (V2 m c main_v4 : FVec Ideal S10x256x256 .f32) (ix3 n k e)
      = (m ((c.tc : Thread nD τ).loc main_arg2) : FVec Ideal S10x24x256x256 .f32) (ix4 n (1 : Fin 24) k e) := by
  have e2 : (V2 m c main_v4 : FVec Ideal S10x256x256 .f32)
      = shapeCast S10x256x256 (extractStridedSlice S10x1x256x256 ![0, 1, 0, 0] (V1 m c main_arg2 : FVec Ideal S10x24x256x256 .f32)
          slices_S10x24x256x256_S10x1x256x256_0_1_0_0) shapeCasts_S10x1x256x256_S10x256x256 := by
    dsimp only [V2]
    simp only [hostOps0_1]
    after_results
    rfl
  rw [e2, slice_reshape_apply _ 1 (by decide), V1_of m c main_arg2 (by decide)]
  rfl

set_option maxHeartbeats 1000000 in

theorem V1_main_v0 (c : Dev nD) :
    (V1 m c main_v0 : FVec Ideal S256x256x256 .f32)
      = taken (m ((c.tc : Thread nD τ).loc main_arg0) : IVec S256x256 32)
          (m ((c.tc : Thread nD τ).loc main_arg1) : FVec Ideal S32000x256 .f32) := by
  dsimp only [V1]
  simp only [hostOps0]
  after_results_simp
  simp only [StableHlo.TRef.toBuf, StableHlo.TRef.ofBuf, cast_eq]
  unfold taken rowOk inRange gathered startIdx normIdx
  rfl

theorem h0_gather (hpre : Cert.Pre_KernelIdeal (hPre_finite_inputs := Cert.Pre_finite_inputs.Gen.facts) m) (c : Dev nD) :
    (V2 m c main_v0 : FVec Ideal S256x256x256 .f32)
      = gathered (m ((c.tc : Thread nD τ).loc main_arg0) : IVec S256x256 32)
          (m ((c.tc : Thread nD τ).loc main_arg1) : FVec Ideal S32000x256 .f32) :=
  (V2_of m c main_v0 (by decide)).trans <| (V1_main_v0 m c).trans <| taken_eq _ _ (idx_of_pre m hpre c)

-- the first region's input is the reference's embedding lookup
theorem h0_eq (c : Dev nD) (hpre : Cert.Pre_KernelIdeal (hPre_finite_inputs := Cert.Pre_finite_inputs.Gen.facts) m) :
    (V2 m c main_v0 : FVec Ideal S256x256x256 .f32)
      = Cert.RefBridge.lookup (m ((c.tc : Thread nD τ).loc main_arg0)) (m ((c.tc : Thread nD τ).loc main_arg1)) :=
  (h0_gather m hpre c).trans rfl

end Cert.KernelIdeal.HostK
end
-- ==== Proof.RefRun.Ops.lean ====
import proofs.«415765_j59210419143216_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsG : List (HloOp τ sig (Elt F)) :=
  [ nullary main_c (constantI S_ 32 0#32),
    unary main_c main_v0 (broadcastInDim S256x256 ![] bcast_S_S256x256),
    binary main_arg0 main_v0 main_v1 (cmpi .slt),
    nullary main_c_0 (constantI S_ 32 32000#32),
    unary main_c_0 main_v2 (broadcastInDim S256x256 ![] bcast_S_S256x256),
    binary main_arg0 main_v2 main_v3 addi,
    ternary main_v1 main_v3 main_arg0 main_v4 select,
    unary main_v4 main_v5 (broadcastInDim S256x256x1 ![0, 1] bcast_S256x256_S256x256x1_0_1),
    binary main_arg1 main_v5 main_v6 (fun x i => Host.gather gather_S32000x256_S256x256x1_S256x256x256_2_0_n_n_0_2_1256 x i) ]

set_option maxRecDepth 8192 in
theorem opsG_sub : (opsG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem opsG_fresh : (opsG : List (HloOp τ sig (Elt F))).Forall fun op => op.fresh = ∅ :=
  ⟨rfl, rfl, rfl, rfl, rfl, rfl, rfl, rfl, rfl⟩

abbrev opsL0 : List (HloOp τ sig (Elt F)) :=
  [ unary main_arg2 main_v7 (extractStridedSlice S1x24x256x256 ![0, 0, 0, 0] · slices_S10x24x256x256_S1x24x256x256_0_0_0_0),
    reshape main_v7 main_v8 rfl shapeCasts_S1x24x256x256_S24x256x256,
    unary main_v8 main_v9 (extractStridedSlice S1x256x256 ![3, 0, 0] · slices_S24x256x256_S1x256x256_3_0_0),
    reshape main_v9 main_v10 rfl shapeCasts_S1x256x256_S256x256,
    binary main_v6 main_v10 main_v11 (fun l r => Host.dotGeneral dot_S256x256x256_S256x256_S256x256x256_2_0_01_1_n_n none l r),
    unary main_v6 main_v12 (extractStridedSlice S256x255x256 ![0, 0, 0] · slices_S256x256x256_S256x255x256_0_0_0),
    unary main_v8 main_v13 (extractStridedSlice S1x256x256 ![1, 0, 0] · slices_S24x256x256_S1x256x256_1_0_0),
    reshape main_v13 main_v14 rfl shapeCasts_S1x256x256_S256x256,
    binary main_v12 main_v14 main_v15 (fun l r => Host.dotGeneral dot_S256x255x256_S256x256_S256x255x256_2_0_01_1_n_n none l r),
    nullary main_c_1 (constantI S_ 32 1#32),
    unary main_c_1 main_v16 (broadcastInDim S1 ![] bcast_S_S1),
    ternary main_v11 main_v16 main_v15 main_v17 (fun x i u => Host.scatter scatter_S256x256x256_S1_S256x255x256_012_n_1_0 FloatOps.addf x i u),
    nullary main_cst (constant S_ .f32 0x3F800000#32),
    unary main_cst main_v18 (broadcastInDim S1 ![] bcast_S_S1),
    nullary main_cst_2 (constant S_ .f32 0x40000000#32),
    unary main_cst_2 main_v19 (broadcastInDim S255 ![] bcast_S_S255),
    binary main_v18 main_v19 main_v20 (fun a b => concatenate S256 0 [⟨S1, a⟩, ⟨S255, b⟩] concatenates_S1_S255_S256_d0),
    unary main_v20 main_v21 (broadcastInDim S1x256x1 ![1] bcast_S256_S1x256x1_1),
    unary main_v21 main_v22 (broadcastInDim S256x256x256 ![0, 1, 2] bcast_S1x256x1_S256x256x256_0_1_2),
    binary main_v17 main_v22 main_v23 Host.divf,
    TRef.nullary (TRef.of (T := ⟨S_, .f32⟩) main_call0_cst) (constant S_ .f32 0x00000000#32),
    TRef.unary (TRef.of (T := ⟨S_, .f32⟩) main_call0_cst) (TRef.of (T := ⟨S256x256x256, .f32⟩) main_call0_v0) (broadcastInDim S256x256x256 ![] bcast_S_S256x256x256),
    TRef.binary (TRef.of (T := ⟨S256x256x256, .f32⟩) main_v23) (TRef.of (T := ⟨S256x256x256, .f32⟩) main_call0_v0) (TRef.of (T := ⟨S256x256x256, .f32⟩) main_v24) maximumf ]

set_option maxRecDepth 8192 in
theorem opsL0_sub : (opsL0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL1 : List (HloOp τ sig (Elt F)) :=
  [ unary main_arg2 main_v25 (extractStridedSlice S1x24x256x256 ![1, 0, 0, 0] · slices_S10x24x256x256_S1x24x256x256_1_0_0_0),
    reshape main_v25 main_v26 rfl shapeCasts_S1x24x256x256_S24x256x256,
    unary main_v26 main_v27 (extractStridedSlice S1x256x256 ![3, 0, 0] · slices_S24x256x256_S1x256x256_3_0_0),
    reshape main_v27 main_v28 rfl shapeCasts_S1x256x256_S256x256,
    binary main_v24 main_v28 main_v29 (fun l r => Host.dotGeneral dot_S256x256x256_S256x256_S256x256x256_2_0_01_1_n_n none l r),
    unary main_v24 main_v30 (extractStridedSlice S256x255x256 ![0, 0, 0] · slices_S256x256x256_S256x255x256_0_0_0),
    unary main_v26 main_v31 (extractStridedSlice S1x256x256 ![1, 0, 0] · slices_S24x256x256_S1x256x256_1_0_0),
    reshape main_v31 main_v32 rfl shapeCasts_S1x256x256_S256x256,
    binary main_v30 main_v32 main_v33 (fun l r => Host.dotGeneral dot_S256x255x256_S256x256_S256x255x256_2_0_01_1_n_n none l r),
    nullary main_c_3 (constantI S_ 32 1#32),
    unary main_c_3 main_v34 (broadcastInDim S1 ![] bcast_S_S1),
    ternary main_v29 main_v34 main_v33 main_v35 (fun x i u => Host.scatter scatter_S256x256x256_S1_S256x255x256_012_n_1_0 FloatOps.addf x i u),
    nullary main_cst_4 (constant S_ .f32 0x3F800000#32),
    unary main_cst_4 main_v36 (broadcastInDim S1 ![] bcast_S_S1),
    nullary main_cst_5 (constant S_ .f32 0x40000000#32),
    unary main_cst_5 main_v37 (broadcastInDim S255 ![] bcast_S_S255),
    binary main_v36 main_v37 main_v38 (fun a b => concatenate S256 0 [⟨S1, a⟩, ⟨S255, b⟩] concatenates_S1_S255_S256_d0),
    unary main_v38 main_v39 (broadcastInDim S1x256x1 ![1] bcast_S256_S1x256x1_1),
    unary main_v39 main_v40 (broadcastInDim S256x256x256 ![0, 1, 2] bcast_S1x256x1_S256x256x256_0_1_2),
    binary main_v35 main_v40 main_v41 Host.divf,
    TRef.nullary (TRef.of (T := ⟨S_, .f32⟩) main_call1_cst) (constant S_ .f32 0x00000000#32),
    TRef.unary (TRef.of (T := ⟨S_, .f32⟩) main_call1_cst) (TRef.of (T := ⟨S256x256x256, .f32⟩) main_call1_v0) (broadcastInDim S256x256x256 ![] bcast_S_S256x256x256),
    TRef.binary (TRef.of (T := ⟨S256x256x256, .f32⟩) main_v41) (TRef.of (T := ⟨S256x256x256, .f32⟩) main_call1_v0) (TRef.of (T := ⟨S256x256x256, .f32⟩) main_v42) maximumf ]

set_option maxRecDepth 8192 in
theorem opsL1_sub : (opsL1 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL2 : List (HloOp τ sig (Elt F)) :=
  [ unary main_arg2 main_v43 (extractStridedSlice S1x24x256x256 ![2, 0, 0, 0] · slices_S10x24x256x256_S1x24x256x256_2_0_0_0),
    reshape main_v43 main_v44 rfl shapeCasts_S1x24x256x256_S24x256x256,
    unary main_v44 main_v45 (extractStridedSlice S1x256x256 ![3, 0, 0] · slices_S24x256x256_S1x256x256_3_0_0),
    reshape main_v45 main_v46 rfl shapeCasts_S1x256x256_S256x256,
    binary main_v42 main_v46 main_v47 (fun l r => Host.dotGeneral dot_S256x256x256_S256x256_S256x256x256_2_0_01_1_n_n none l r),
    unary main_v42 main_v48 (extractStridedSlice S256x255x256 ![0, 0, 0] · slices_S256x256x256_S256x255x256_0_0_0),
    unary main_v44 main_v49 (extractStridedSlice S1x256x256 ![1, 0, 0] · slices_S24x256x256_S1x256x256_1_0_0),
    reshape main_v49 main_v50 rfl shapeCasts_S1x256x256_S256x256,
    binary main_v48 main_v50 main_v51 (fun l r => Host.dotGeneral dot_S256x255x256_S256x256_S256x255x256_2_0_01_1_n_n none l r),
    nullary main_c_6 (constantI S_ 32 1#32),
    unary main_c_6 main_v52 (broadcastInDim S1 ![] bcast_S_S1),
    ternary main_v47 main_v52 main_v51 main_v53 (fun x i u => Host.scatter scatter_S256x256x256_S1_S256x255x256_012_n_1_0 FloatOps.addf x i u),
    nullary main_cst_7 (constant S_ .f32 0x3F800000#32),
    unary main_cst_7 main_v54 (broadcastInDim S1 ![] bcast_S_S1),
    nullary main_cst_8 (constant S_ .f32 0x40000000#32),
    unary main_cst_8 main_v55 (broadcastInDim S255 ![] bcast_S_S255),
    binary main_v54 main_v55 main_v56 (fun a b => concatenate S256 0 [⟨S1, a⟩, ⟨S255, b⟩] concatenates_S1_S255_S256_d0),
    unary main_v56 main_v57 (broadcastInDim S1x256x1 ![1] bcast_S256_S1x256x1_1),
    unary main_v57 main_v58 (broadcastInDim S256x256x256 ![0, 1, 2] bcast_S1x256x1_S256x256x256_0_1_2),
    binary main_v53 main_v58 main_v59 Host.divf,
    TRef.nullary (TRef.of (T := ⟨S_, .f32⟩) main_call2_cst) (constant S_ .f32 0x00000000#32),
    TRef.unary (TRef.of (T := ⟨S_, .f32⟩) main_call2_cst) (TRef.of (T := ⟨S256x256x256, .f32⟩) main_call2_v0) (broadcastInDim S256x256x256 ![] bcast_S_S256x256x256),
    TRef.binary (TRef.of (T := ⟨S256x256x256, .f32⟩) main_v59) (TRef.of (T := ⟨S256x256x256, .f32⟩) main_call2_v0) (TRef.of (T := ⟨S256x256x256, .f32⟩) main_v60) maximumf ]

set_option maxRecDepth 8192 in
theorem opsL2_sub : (opsL2 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL3 : List (HloOp τ sig (Elt F)) :=
  [ unary main_arg2 main_v61 (extractStridedSlice S1x24x256x256 ![3, 0, 0, 0] · slices_S10x24x256x256_S1x24x256x256_3_0_0_0),
    reshape main_v61 main_v62 rfl shapeCasts_S1x24x256x256_S24x256x256,
    unary main_v62 main_v63 (extractStridedSlice S1x256x256 ![3, 0, 0] · slices_S24x256x256_S1x256x256_3_0_0),
    reshape main_v63 main_v64 rfl shapeCasts_S1x256x256_S256x256,
    binary main_v60 main_v64 main_v65 (fun l r => Host.dotGeneral dot_S256x256x256_S256x256_S256x256x256_2_0_01_1_n_n none l r),
    unary main_v60 main_v66 (extractStridedSlice S256x255x256 ![0, 0, 0] · slices_S256x256x256_S256x255x256_0_0_0),
    unary main_v62 main_v67 (extractStridedSlice S1x256x256 ![1, 0, 0] · slices_S24x256x256_S1x256x256_1_0_0),
    reshape main_v67 main_v68 rfl shapeCasts_S1x256x256_S256x256,
    binary main_v66 main_v68 main_v69 (fun l r => Host.dotGeneral dot_S256x255x256_S256x256_S256x255x256_2_0_01_1_n_n none l r),
    nullary main_c_9 (constantI S_ 32 1#32),
    unary main_c_9 main_v70 (broadcastInDim S1 ![] bcast_S_S1),
    ternary main_v65 main_v70 main_v69 main_v71 (fun x i u => Host.scatter scatter_S256x256x256_S1_S256x255x256_012_n_1_0 FloatOps.addf x i u),
    nullary main_cst_10 (constant S_ .f32 0x3F800000#32),
    unary main_cst_10 main_v72 (broadcastInDim S1 ![] bcast_S_S1),
    nullary main_cst_11 (constant S_ .f32 0x40000000#32),
    unary main_cst_11 main_v73 (broadcastInDim S255 ![] bcast_S_S255),
    binary main_v72 main_v73 main_v74 (fun a b => concatenate S256 0 [⟨S1, a⟩, ⟨S255, b⟩] concatenates_S1_S255_S256_d0),
    unary main_v74 main_v75 (broadcastInDim S1x256x1 ![1] bcast_S256_S1x256x1_1),
    unary main_v75 main_v76 (broadcastInDim S256x256x256 ![0, 1, 2] bcast_S1x256x1_S256x256x256_0_1_2),
    binary main_v71 main_v76 main_v77 Host.divf,
    TRef.nullary (TRef.of (T := ⟨S_, .f32⟩) main_call3_cst) (constant S_ .f32 0x00000000#32),
    TRef.unary (TRef.of (T := ⟨S_, .f32⟩) main_call3_cst) (TRef.of (T := ⟨S256x256x256, .f32⟩) main_call3_v0) (broadcastInDim S256x256x256 ![] bcast_S_S256x256x256),
    TRef.binary (TRef.of (T := ⟨S256x256x256, .f32⟩) main_v77) (TRef.of (T := ⟨S256x256x256, .f32⟩) main_call3_v0) (TRef.of (T := ⟨S256x256x256, .f32⟩) main_v78) maximumf ]

set_option maxRecDepth 8192 in
theorem opsL3_sub : (opsL3 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL4 : List (HloOp τ sig (Elt F)) :=
  [ unary main_arg2 main_v79 (extractStridedSlice S1x24x256x256 ![4, 0, 0, 0] · slices_S10x24x256x256_S1x24x256x256_4_0_0_0),
    reshape main_v79 main_v80 rfl shapeCasts_S1x24x256x256_S24x256x256,
    unary main_v80 main_v81 (extractStridedSlice S1x256x256 ![3, 0, 0] · slices_S24x256x256_S1x256x256_3_0_0),
    reshape main_v81 main_v82 rfl shapeCasts_S1x256x256_S256x256,
    binary main_v78 main_v82 main_v83 (fun l r => Host.dotGeneral dot_S256x256x256_S256x256_S256x256x256_2_0_01_1_n_n none l r),
    unary main_v78 main_v84 (extractStridedSlice S256x255x256 ![0, 0, 0] · slices_S256x256x256_S256x255x256_0_0_0),
    unary main_v80 main_v85 (extractStridedSlice S1x256x256 ![1, 0, 0] · slices_S24x256x256_S1x256x256_1_0_0),
    reshape main_v85 main_v86 rfl shapeCasts_S1x256x256_S256x256,
    binary main_v84 main_v86 main_v87 (fun l r => Host.dotGeneral dot_S256x255x256_S256x256_S256x255x256_2_0_01_1_n_n none l r),
    nullary main_c_12 (constantI S_ 32 1#32),
    unary main_c_12 main_v88 (broadcastInDim S1 ![] bcast_S_S1),
    ternary main_v83 main_v88 main_v87 main_v89 (fun x i u => Host.scatter scatter_S256x256x256_S1_S256x255x256_012_n_1_0 FloatOps.addf x i u),
    nullary main_cst_13 (constant S_ .f32 0x3F800000#32),
    unary main_cst_13 main_v90 (broadcastInDim S1 ![] bcast_S_S1),
    nullary main_cst_14 (constant S_ .f32 0x40000000#32),
    unary main_cst_14 main_v91 (broadcastInDim S255 ![] bcast_S_S255),
    binary main_v90 main_v91 main_v92 (fun a b => concatenate S256 0 [⟨S1, a⟩, ⟨S255, b⟩] concatenates_S1_S255_S256_d0),
    unary main_v92 main_v93 (broadcastInDim S1x256x1 ![1] bcast_S256_S1x256x1_1),
    unary main_v93 main_v94 (broadcastInDim S256x256x256 ![0, 1, 2] bcast_S1x256x1_S256x256x256_0_1_2),
    binary main_v89 main_v94 main_v95 Host.divf,
    TRef.nullary (TRef.of (T := ⟨S_, .f32⟩) main_call4_cst) (constant S_ .f32 0x00000000#32),
    TRef.unary (TRef.of (T := ⟨S_, .f32⟩) main_call4_cst) (TRef.of (T := ⟨S256x256x256, .f32⟩) main_call4_v0) (broadcastInDim S256x256x256 ![] bcast_S_S256x256x256),
    TRef.binary (TRef.of (T := ⟨S256x256x256, .f32⟩) main_v95) (TRef.of (T := ⟨S256x256x256, .f32⟩) main_call4_v0) (TRef.of (T := ⟨S256x256x256, .f32⟩) main_v96) maximumf ]

set_option maxRecDepth 8192 in
theorem opsL4_sub : (opsL4 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL4_fresh : (opsL4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL5 : List (HloOp τ sig (Elt F)) :=
  [ unary main_arg2 main_v97 (extractStridedSlice S1x24x256x256 ![5, 0, 0, 0] · slices_S10x24x256x256_S1x24x256x256_5_0_0_0),
    reshape main_v97 main_v98 rfl shapeCasts_S1x24x256x256_S24x256x256,
    unary main_v98 main_v99 (extractStridedSlice S1x256x256 ![3, 0, 0] · slices_S24x256x256_S1x256x256_3_0_0),
    reshape main_v99 main_v100 rfl shapeCasts_S1x256x256_S256x256,
    binary main_v96 main_v100 main_v101 (fun l r => Host.dotGeneral dot_S256x256x256_S256x256_S256x256x256_2_0_01_1_n_n none l r),
    unary main_v96 main_v102 (extractStridedSlice S256x255x256 ![0, 0, 0] · slices_S256x256x256_S256x255x256_0_0_0),
    unary main_v98 main_v103 (extractStridedSlice S1x256x256 ![1, 0, 0] · slices_S24x256x256_S1x256x256_1_0_0),
    reshape main_v103 main_v104 rfl shapeCasts_S1x256x256_S256x256,
    binary main_v102 main_v104 main_v105 (fun l r => Host.dotGeneral dot_S256x255x256_S256x256_S256x255x256_2_0_01_1_n_n none l r),
    nullary main_c_15 (constantI S_ 32 1#32),
    unary main_c_15 main_v106 (broadcastInDim S1 ![] bcast_S_S1),
    ternary main_v101 main_v106 main_v105 main_v107 (fun x i u => Host.scatter scatter_S256x256x256_S1_S256x255x256_012_n_1_0 FloatOps.addf x i u),
    nullary main_cst_16 (constant S_ .f32 0x3F800000#32),
    unary main_cst_16 main_v108 (broadcastInDim S1 ![] bcast_S_S1),
    nullary main_cst_17 (constant S_ .f32 0x40000000#32),
    unary main_cst_17 main_v109 (broadcastInDim S255 ![] bcast_S_S255),
    binary main_v108 main_v109 main_v110 (fun a b => concatenate S256 0 [⟨S1, a⟩, ⟨S255, b⟩] concatenates_S1_S255_S256_d0),
    unary main_v110 main_v111 (broadcastInDim S1x256x1 ![1] bcast_S256_S1x256x1_1),
    unary main_v111 main_v112 (broadcastInDim S256x256x256 ![0, 1, 2] bcast_S1x256x1_S256x256x256_0_1_2),
    binary main_v107 main_v112 main_v113 Host.divf,
    TRef.nullary (TRef.of (T := ⟨S_, .f32⟩) main_call5_cst) (constant S_ .f32 0x00000000#32),
    TRef.unary (TRef.of (T := ⟨S_, .f32⟩) main_call5_cst) (TRef.of (T := ⟨S256x256x256, .f32⟩) main_call5_v0) (broadcastInDim S256x256x256 ![] bcast_S_S256x256x256),
    TRef.binary (TRef.of (T := ⟨S256x256x256, .f32⟩) main_v113) (TRef.of (T := ⟨S256x256x256, .f32⟩) main_call5_v0) (TRef.of (T := ⟨S256x256x256, .f32⟩) main_v114) maximumf ]

set_option maxRecDepth 8192 in
theorem opsL5_sub : (opsL5 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL5_fresh : (opsL5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL6 : List (HloOp τ sig (Elt F)) :=
  [ unary main_arg2 main_v115 (extractStridedSlice S1x24x256x256 ![6, 0, 0, 0] · slices_S10x24x256x256_S1x24x256x256_6_0_0_0),
    reshape main_v115 main_v116 rfl shapeCasts_S1x24x256x256_S24x256x256,
    unary main_v116 main_v117 (extractStridedSlice S1x256x256 ![3, 0, 0] · slices_S24x256x256_S1x256x256_3_0_0),
    reshape main_v117 main_v118 rfl shapeCasts_S1x256x256_S256x256,
    binary main_v114 main_v118 main_v119 (fun l r => Host.dotGeneral dot_S256x256x256_S256x256_S256x256x256_2_0_01_1_n_n none l r),
    unary main_v114 main_v120 (extractStridedSlice S256x255x256 ![0, 0, 0] · slices_S256x256x256_S256x255x256_0_0_0),
    unary main_v116 main_v121 (extractStridedSlice S1x256x256 ![1, 0, 0] · slices_S24x256x256_S1x256x256_1_0_0),
    reshape main_v121 main_v122 rfl shapeCasts_S1x256x256_S256x256,
    binary main_v120 main_v122 main_v123 (fun l r => Host.dotGeneral dot_S256x255x256_S256x256_S256x255x256_2_0_01_1_n_n none l r),
    nullary main_c_18 (constantI S_ 32 1#32),
    unary main_c_18 main_v124 (broadcastInDim S1 ![] bcast_S_S1),
    ternary main_v119 main_v124 main_v123 main_v125 (fun x i u => Host.scatter scatter_S256x256x256_S1_S256x255x256_012_n_1_0 FloatOps.addf x i u),
    nullary main_cst_19 (constant S_ .f32 0x3F800000#32),
    unary main_cst_19 main_v126 (broadcastInDim S1 ![] bcast_S_S1),
    nullary main_cst_20 (constant S_ .f32 0x40000000#32),
    unary main_cst_20 main_v127 (broadcastInDim S255 ![] bcast_S_S255),
    binary main_v126 main_v127 main_v128 (fun a b => concatenate S256 0 [⟨S1, a⟩, ⟨S255, b⟩] concatenates_S1_S255_S256_d0),
    unary main_v128 main_v129 (broadcastInDim S1x256x1 ![1] bcast_S256_S1x256x1_1),
    unary main_v129 main_v130 (broadcastInDim S256x256x256 ![0, 1, 2] bcast_S1x256x1_S256x256x256_0_1_2),
    binary main_v125 main_v130 main_v131 Host.divf,
    TRef.nullary (TRef.of (T := ⟨S_, .f32⟩) main_call6_cst) (constant S_ .f32 0x00000000#32),
    TRef.unary (TRef.of (T := ⟨S_, .f32⟩) main_call6_cst) (TRef.of (T := ⟨S256x256x256, .f32⟩) main_call6_v0) (broadcastInDim S256x256x256 ![] bcast_S_S256x256x256),
    TRef.binary (TRef.of (T := ⟨S256x256x256, .f32⟩) main_v131) (TRef.of (T := ⟨S256x256x256, .f32⟩) main_call6_v0) (TRef.of (T := ⟨S256x256x256, .f32⟩) main_v132) maximumf ]

set_option maxRecDepth 8192 in
theorem opsL6_sub : (opsL6 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL6_fresh : (opsL6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL7 : List (HloOp τ sig (Elt F)) :=
  [ unary main_arg2 main_v133 (extractStridedSlice S1x24x256x256 ![7, 0, 0, 0] · slices_S10x24x256x256_S1x24x256x256_7_0_0_0),
    reshape main_v133 main_v134 rfl shapeCasts_S1x24x256x256_S24x256x256,
    unary main_v134 main_v135 (extractStridedSlice S1x256x256 ![3, 0, 0] · slices_S24x256x256_S1x256x256_3_0_0),
    reshape main_v135 main_v136 rfl shapeCasts_S1x256x256_S256x256,
    binary main_v132 main_v136 main_v137 (fun l r => Host.dotGeneral dot_S256x256x256_S256x256_S256x256x256_2_0_01_1_n_n none l r),
    unary main_v132 main_v138 (extractStridedSlice S256x255x256 ![0, 0, 0] · slices_S256x256x256_S256x255x256_0_0_0),
    unary main_v134 main_v139 (extractStridedSlice S1x256x256 ![1, 0, 0] · slices_S24x256x256_S1x256x256_1_0_0),
    reshape main_v139 main_v140 rfl shapeCasts_S1x256x256_S256x256,
    binary main_v138 main_v140 main_v141 (fun l r => Host.dotGeneral dot_S256x255x256_S256x256_S256x255x256_2_0_01_1_n_n none l r),
    nullary main_c_21 (constantI S_ 32 1#32),
    unary main_c_21 main_v142 (broadcastInDim S1 ![] bcast_S_S1),
    ternary main_v137 main_v142 main_v141 main_v143 (fun x i u => Host.scatter scatter_S256x256x256_S1_S256x255x256_012_n_1_0 FloatOps.addf x i u),
    nullary main_cst_22 (constant S_ .f32 0x3F800000#32),
    unary main_cst_22 main_v144 (broadcastInDim S1 ![] bcast_S_S1),
    nullary main_cst_23 (constant S_ .f32 0x40000000#32),
    unary main_cst_23 main_v145 (broadcastInDim S255 ![] bcast_S_S255),
    binary main_v144 main_v145 main_v146 (fun a b => concatenate S256 0 [⟨S1, a⟩, ⟨S255, b⟩] concatenates_S1_S255_S256_d0),
    unary main_v146 main_v147 (broadcastInDim S1x256x1 ![1] bcast_S256_S1x256x1_1),
    unary main_v147 main_v148 (broadcastInDim S256x256x256 ![0, 1, 2] bcast_S1x256x1_S256x256x256_0_1_2),
    binary main_v143 main_v148 main_v149 Host.divf,
    TRef.nullary (TRef.of (T := ⟨S_, .f32⟩) main_call7_cst) (constant S_ .f32 0x00000000#32),
    TRef.unary (TRef.of (T := ⟨S_, .f32⟩) main_call7_cst) (TRef.of (T := ⟨S256x256x256, .f32⟩) main_call7_v0) (broadcastInDim S256x256x256 ![] bcast_S_S256x256x256),
    TRef.binary (TRef.of (T := ⟨S256x256x256, .f32⟩) main_v149) (TRef.of (T := ⟨S256x256x256, .f32⟩) main_call7_v0) (TRef.of (T := ⟨S256x256x256, .f32⟩) main_v150) maximumf ]

set_option maxRecDepth 8192 in
theorem opsL7_sub : (opsL7 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL7_fresh : (opsL7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL8 : List (HloOp τ sig (Elt F)) :=
  [ unary main_arg2 main_v151 (extractStridedSlice S1x24x256x256 ![8, 0, 0, 0] · slices_S10x24x256x256_S1x24x256x256_8_0_0_0),
    reshape main_v151 main_v152 rfl shapeCasts_S1x24x256x256_S24x256x256,
    unary main_v152 main_v153 (extractStridedSlice S1x256x256 ![3, 0, 0] · slices_S24x256x256_S1x256x256_3_0_0),
    reshape main_v153 main_v154 rfl shapeCasts_S1x256x256_S256x256,
    binary main_v150 main_v154 main_v155 (fun l r => Host.dotGeneral dot_S256x256x256_S256x256_S256x256x256_2_0_01_1_n_n none l r),
    unary main_v150 main_v156 (extractStridedSlice S256x255x256 ![0, 0, 0] · slices_S256x256x256_S256x255x256_0_0_0),
    unary main_v152 main_v157 (extractStridedSlice S1x256x256 ![1, 0, 0] · slices_S24x256x256_S1x256x256_1_0_0),
    reshape main_v157 main_v158 rfl shapeCasts_S1x256x256_S256x256,
    binary main_v156 main_v158 main_v159 (fun l r => Host.dotGeneral dot_S256x255x256_S256x256_S256x255x256_2_0_01_1_n_n none l r),
    nullary main_c_24 (constantI S_ 32 1#32),
    unary main_c_24 main_v160 (broadcastInDim S1 ![] bcast_S_S1),
    ternary main_v155 main_v160 main_v159 main_v161 (fun x i u => Host.scatter scatter_S256x256x256_S1_S256x255x256_012_n_1_0 FloatOps.addf x i u),
    nullary main_cst_25 (constant S_ .f32 0x3F800000#32),
    unary main_cst_25 main_v162 (broadcastInDim S1 ![] bcast_S_S1),
    nullary main_cst_26 (constant S_ .f32 0x40000000#32),
    unary main_cst_26 main_v163 (broadcastInDim S255 ![] bcast_S_S255),
    binary main_v162 main_v163 main_v164 (fun a b => concatenate S256 0 [⟨S1, a⟩, ⟨S255, b⟩] concatenates_S1_S255_S256_d0),
    unary main_v164 main_v165 (broadcastInDim S1x256x1 ![1] bcast_S256_S1x256x1_1),
    unary main_v165 main_v166 (broadcastInDim S256x256x256 ![0, 1, 2] bcast_S1x256x1_S256x256x256_0_1_2),
    binary main_v161 main_v166 main_v167 Host.divf,
    TRef.nullary (TRef.of (T := ⟨S_, .f32⟩) main_call8_cst) (constant S_ .f32 0x00000000#32),
    TRef.unary (TRef.of (T := ⟨S_, .f32⟩) main_call8_cst) (TRef.of (T := ⟨S256x256x256, .f32⟩) main_call8_v0) (broadcastInDim S256x256x256 ![] bcast_S_S256x256x256),
    TRef.binary (TRef.of (T := ⟨S256x256x256, .f32⟩) main_v167) (TRef.of (T := ⟨S256x256x256, .f32⟩) main_call8_v0) (TRef.of (T := ⟨S256x256x256, .f32⟩) main_v168) maximumf ]

set_option maxRecDepth 8192 in
theorem opsL8_sub : (opsL8 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL8_fresh : (opsL8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsL9 : List (HloOp τ sig (Elt F)) :=
  [ unary main_arg2 main_v169 (extractStridedSlice S1x24x256x256 ![9, 0, 0, 0] · slices_S10x24x256x256_S1x24x256x256_9_0_0_0),
    reshape main_v169 main_v170 rfl shapeCasts_S1x24x256x256_S24x256x256,
    unary main_v170 main_v171 (extractStridedSlice S1x256x256 ![3, 0, 0] · slices_S24x256x256_S1x256x256_3_0_0),
    reshape main_v171 main_v172 rfl shapeCasts_S1x256x256_S256x256,
    binary main_v168 main_v172 main_v173 (fun l r => Host.dotGeneral dot_S256x256x256_S256x256_S256x256x256_2_0_01_1_n_n none l r),
    unary main_v168 main_v174 (extractStridedSlice S256x255x256 ![0, 0, 0] · slices_S256x256x256_S256x255x256_0_0_0),
    unary main_v170 main_v175 (extractStridedSlice S1x256x256 ![1, 0, 0] · slices_S24x256x256_S1x256x256_1_0_0),
    reshape main_v175 main_v176 rfl shapeCasts_S1x256x256_S256x256,
    binary main_v174 main_v176 main_v177 (fun l r => Host.dotGeneral dot_S256x255x256_S256x256_S256x255x256_2_0_01_1_n_n none l r),
    nullary main_c_27 (constantI S_ 32 1#32),
    unary main_c_27 main_v178 (broadcastInDim S1 ![] bcast_S_S1),
    ternary main_v173 main_v178 main_v177 main_v179 (fun x i u => Host.scatter scatter_S256x256x256_S1_S256x255x256_012_n_1_0 FloatOps.addf x i u),
    nullary main_cst_28 (constant S_ .f32 0x3F800000#32),
    unary main_cst_28 main_v180 (broadcastInDim S1 ![] bcast_S_S1),
    nullary main_cst_29 (constant S_ .f32 0x40000000#32),
    unary main_cst_29 main_v181 (broadcastInDim S255 ![] bcast_S_S255),
    binary main_v180 main_v181 main_v182 (fun a b => concatenate S256 0 [⟨S1, a⟩, ⟨S255, b⟩] concatenates_S1_S255_S256_d0),
    unary main_v182 main_v183 (broadcastInDim S1x256x1 ![1] bcast_S256_S1x256x1_1),
    unary main_v183 main_v184 (broadcastInDim S256x256x256 ![0, 1, 2] bcast_S1x256x1_S256x256x256_0_1_2),
    binary main_v179 main_v184 main_v185 Host.divf,
    TRef.nullary (TRef.of (T := ⟨S_, .f32⟩) main_call9_cst) (constant S_ .f32 0x00000000#32),
    TRef.unary (TRef.of (T := ⟨S_, .f32⟩) main_call9_cst) (TRef.of (T := ⟨S256x256x256, .f32⟩) main_call9_v0) (broadcastInDim S256x256x256 ![] bcast_S_S256x256x256),
    TRef.binary (TRef.of (T := ⟨S256x256x256, .f32⟩) main_v185) (TRef.of (T := ⟨S256x256x256, .f32⟩) main_call9_v0) (TRef.of (T := ⟨S256x256x256, .f32⟩) main_v186) maximumf ]

set_option maxRecDepth 8192 in
theorem opsL9_sub : (opsL9 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., reshape_bufs_sub .., binary_bufs_sub .., nullary_bufs_sub .., unary_bufs_sub .., ternary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub ..⟩

set_option maxRecDepth 8192 in
theorem opsL9_fresh : (opsL9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev opsT : List (HloOp τ sig (Elt F)) :=
  [ unary main_v186 main_v187 (extractStridedSlice S256x1x256 ![0, 255, 0] · slices_S256x256x256_S256x1x256_0_255_0),
    reshape main_v187 main_v188 rfl shapeCasts_S256x1x256_S256x256,
    unary main_arg3 main_v189 (transpose S256x32000 [1, 0] · transposes_S32000x256_S256x32000_1_0),
    binary main_v188 main_v189 main_v190 (fun l r => Host.dotGeneral dot_S256x256_S256x32000_S256x32000_1_0_0_1_n_n none l r),
    unary main_arg4 main_v191 (broadcastInDim S1x32000 ![1] bcast_S32000_S1x32000_1),
    unary main_v191 main_v192 (broadcastInDim S256x32000 ![0, 1] bcast_S1x32000_S256x32000_0_1),
    binary main_v190 main_v192 main_v193 addf ]

set_option maxRecDepth 8192 in
theorem opsT_sub : (opsT : List (HloOp τ sig (Elt F))).Forall fun op => op.bufs ⊆ tcRefs τ sig :=
  ⟨unary_bufs_sub .., reshape_bufs_sub .., unary_bufs_sub .., binary_bufs_sub .., unary_bufs_sub .., unary_bufs_sub .., binary_bufs_sub ..⟩

set_option maxRecDepth 8192 in
theorem opsT_fresh : (opsT : List (HloOp τ sig (Elt F))).Forall fun op => op.fresh = ∅ :=
  ⟨rfl, rfl, rfl, rfl, rfl, rfl, rfl⟩

abbrev opsAll : List (HloOp τ sig (Elt F)) :=
  opsG ++ (opsL0 ++ (opsL1 ++ (opsL2 ++ (opsL3 ++ (opsL4 ++ (opsL5 ++ (opsL6 ++ (opsL7 ++ (opsL8 ++ (opsL9 ++ (opsT)))))))))))

end Cert.RefRun

end
-- ==== Proof.RefRun.Value.lean ====
import proofs.«415765_j59210419143216_1_alg».proof.Proof.RefValue
import proofs.«415765_j59210419143216_1_alg».proof.Proof.RefRun.Ops
import Idealize.ShloMosaic.Lib.StableHlo.Run
import Idealize.ShloMosaic.Lib.Pipeline.Frame

noncomputable section

namespace Cert.RefRun

open Cert.ReferenceIdeal Cert.ReferenceIdeal.Gen Cert.RefBridge Idealize.ShloMosaic Idealize.ShloMosaic.TcCoe Idealize.SL.Sem Idealize.ShloMosaic.StableHlo

/-- the two valuations agree on the five argument buffers -/
def SameArgs (W' W : Valuation τ sig (Elt Ideal)) : Prop :=
  W' (Proc.devRef .tc main_arg0) = W (Proc.devRef .tc main_arg0)
  ∧ W' (Proc.devRef .tc main_arg1) = W (Proc.devRef .tc main_arg1)
  ∧ W' (Proc.devRef .tc main_arg2) = W (Proc.devRef .tc main_arg2)
  ∧ W' (Proc.devRef .tc main_arg3) = W (Proc.devRef .tc main_arg3)
  ∧ W' (Proc.devRef .tc main_arg4) = W (Proc.devRef .tc main_arg4)

theorem SameArgs.trans {W'' W' W : Valuation τ sig (Elt Ideal)} (h : SameArgs W'' W') (g : SameArgs W' W) : SameArgs W'' W :=
  ⟨h.1.trans g.1, h.2.1.trans g.2.1, h.2.2.1.trans g.2.2.1, h.2.2.2.1.trans g.2.2.2.1, h.2.2.2.2.trans g.2.2.2.2⟩

-- no list writes an argument's buffer
theorem opsG_same (W : Valuation τ sig (Elt Ideal)) : SameArgs (after opsG W) W := by
  refine ⟨?_, ?_, ?_, ?_, ?_⟩ <;> after_results_simp
theorem opsL0_same (W : Valuation τ sig (Elt Ideal)) : SameArgs (after opsL0 W) W := by
  refine ⟨?_, ?_, ?_, ?_, ?_⟩ <;> after_results_simp
theorem opsL1_same (W : Valuation τ sig (Elt Ideal)) : SameArgs (after opsL1 W) W := by
  refine ⟨?_, ?_, ?_, ?_, ?_⟩ <;> after_results_simp
theorem opsL2_same (W : Valuation τ sig (Elt Ideal)) : SameArgs (after opsL2 W) W := by
  refine ⟨?_, ?_, ?_, ?_, ?_⟩ <;> after_results_simp
theorem opsL3_same (W : Valuation τ sig (Elt Ideal)) : SameArgs (after opsL3 W) W := by
  refine ⟨?_, ?_, ?_, ?_, ?_⟩ <;> after_results_simp
theorem opsL4_same (W : Valuation τ sig (Elt Ideal)) : SameArgs (after opsL4 W) W := by
  refine ⟨?_, ?_, ?_, ?_, ?_⟩ <;> after_results_simp
theorem opsL5_same (W : Valuation τ sig (Elt Ideal)) : SameArgs (after opsL5 W) W := by
  refine ⟨?_, ?_, ?_, ?_, ?_⟩ <;> after_results_simp
theorem opsL6_same (W : Valuation τ sig (Elt Ideal)) : SameArgs (after opsL6 W) W := by
  refine ⟨?_, ?_, ?_, ?_, ?_⟩ <;> after_results_simp
theorem opsL7_same (W : Valuation τ sig (Elt Ideal)) : SameArgs (after opsL7 W) W := by
  refine ⟨?_, ?_, ?_, ?_, ?_⟩ <;> after_results_simp
theorem opsL8_same (W : Valuation τ sig (Elt Ideal)) : SameArgs (after opsL8 W) W := by
  refine ⟨?_, ?_, ?_, ?_, ?_⟩ <;> after_results_simp
theorem opsL9_same (W : Valuation τ sig (Elt Ideal)) : SameArgs (after opsL9 W) W := by
  refine ⟨?_, ?_, ?_, ?_, ?_⟩ <;> after_results_simp
theorem opsT_same (W : Valuation τ sig (Elt Ideal)) : SameArgs (after opsT W) W := by
  refine ⟨?_, ?_, ?_, ?_, ?_⟩ <;> after_results_simp

-- each list leaves its result buffer at the stage's value of the buffers it reads
theorem opsG_val (W : Valuation τ sig (Elt Ideal)) :
    after opsG W (Proc.devRef .tc main_v6) = lookup (W (Proc.devRef .tc main_arg0)) (W (Proc.devRef .tc main_arg1)) := by
  after_results_simp
  rfl
theorem opsL0_val (W : Valuation τ sig (Elt Ideal)) :
    after opsL0 W (Proc.devRef .tc main_v24) = layerN (W (Proc.devRef .tc main_arg2)) 0 (by decide) (W (Proc.devRef .tc main_v6)) := by
  after_results_simp
  rfl
theorem opsL1_val (W : Valuation τ sig (Elt Ideal)) :
    after opsL1 W (Proc.devRef .tc main_v42) = layerN (W (Proc.devRef .tc main_arg2)) 1 (by decide) (W (Proc.devRef .tc main_v24)) := by
  after_results_simp
  rfl
theorem opsL2_val (W : Valuation τ sig (Elt Ideal)) :
    after opsL2 W (Proc.devRef .tc main_v60) = layerN (W (Proc.devRef .tc main_arg2)) 2 (by decide) (W (Proc.devRef .tc main_v42)) := by
  after_results_simp
  rfl
theorem opsL3_val (W : Valuation τ sig (Elt Ideal)) :
    after opsL3 W (Proc.devRef .tc main_v78) = layerN (W (Proc.devRef .tc main_arg2)) 3 (by decide) (W (Proc.devRef .tc main_v60)) := by
  after_results_simp
  rfl
theorem opsL4_val (W : Valuation τ sig (Elt Ideal)) :
    after opsL4 W (Proc.devRef .tc main_v96) = layerN (W (Proc.devRef .tc main_arg2)) 4 (by decide) (W (Proc.devRef .tc main_v78)) := by
  after_results_simp
  rfl
theorem opsL5_val (W : Valuation τ sig (Elt Ideal)) :
    after opsL5 W (Proc.devRef .tc main_v114) = layerN (W (Proc.devRef .tc main_arg2)) 5 (by decide) (W (Proc.devRef .tc main_v96)) := by
  after_results_simp
  rfl
theorem opsL6_val (W : Valuation τ sig (Elt Ideal)) :
    after opsL6 W (Proc.devRef .tc main_v132) = layerN (W (Proc.devRef .tc main_arg2)) 6 (by decide) (W (Proc.devRef .tc main_v114)) := by
  after_results_simp
  rfl
theorem opsL7_val (W : Valuation τ sig (Elt Ideal)) :
    after opsL7 W (Proc.devRef .tc main_v150) = layerN (W (Proc.devRef .tc main_arg2)) 7 (by decide) (W (Proc.devRef .tc main_v132)) := by
  after_results_simp
  rfl
theorem opsL8_val (W : Valuation τ sig (Elt Ideal)) :
    after opsL8 W (Proc.devRef .tc main_v168) = layerN (W (Proc.devRef .tc main_arg2)) 8 (by decide) (W (Proc.devRef .tc main_v150)) := by
  after_results_simp
  rfl
theorem opsL9_val (W : Valuation τ sig (Elt Ideal)) :
    after opsL9 W (Proc.devRef .tc main_v186) = layerN (W (Proc.devRef .tc main_arg2)) 9 (by decide) (W (Proc.devRef .tc main_v168)) := by
  after_results_simp
  rfl
theorem opsT_val (W : Valuation τ sig (Elt Ideal)) :
    after opsT W (Proc.devRef .tc main_v193)
      = proj (W (Proc.devRef .tc main_v186)) (W (Proc.devRef .tc main_arg3)) (W (Proc.devRef .tc main_arg4)) := by
  after_results_simp
  rfl

/-- all of @main's operations, from any contents V: the result buffer holds the specification's result of V's arguments, which are kept -/
theorem opsAll_val (V : Valuation τ sig (Elt Ideal)) :
    after opsAll V (Proc.devRef .tc main_v193)
        = Cert.Spec.result (lookup (V (Proc.devRef .tc main_arg0)) (V (Proc.devRef .tc main_arg1))) (V (Proc.devRef .tc main_arg2))
            (V (Proc.devRef .tc main_arg3)) (V (Proc.devRef .tc main_arg4))
      ∧ SameArgs (after opsAll V) V := by
  simp only [opsAll, StableHlo.after_append]
  have a0 := opsG_same V
  have a1 := (opsL0_same _).trans a0
  have a2 := (opsL1_same _).trans a1
  have a3 := (opsL2_same _).trans a2
  have a4 := (opsL3_same _).trans a3
  have a5 := (opsL4_same _).trans a4
  have a6 := (opsL5_same _).trans a5
  have a7 := (opsL6_same _).trans a6
  have a8 := (opsL7_same _).trans a7
  have a9 := (opsL8_same _).trans a8
  have a10 := (opsL9_same _).trans a9
  refine ⟨?_, (opsT_same _).trans a10⟩
  rw [opsT_val, a10.2.2.2.1, a10.2.2.2.2, opsL9_val, a9.2.2.1, opsL8_val, a8.2.2.1, opsL7_val, a7.2.2.1, opsL6_val, a6.2.2.1, opsL5_val, a5.2.2.1, opsL4_val, a4.2.2.1, opsL3_val, a3.2.2.1, opsL2_val, a2.2.2.1, opsL1_val, a1.2.2.1, opsL0_val, a0.2.2.1, opsG_val]
  exact value_eq _ _ _ _ _

end Cert.RefRun

end
-- ==== Proof.RefRun.MainEq.lean ====
import proofs.«415765_j59210419143216_1_alg».proof.Proof.RefRun.Ops
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

def opsW0 : List (HloOp τ sig (Elt F)) := opsG ++ (opsL0 ++ (opsL1 ++ opsL2.take 9))

def opsW1 : List (HloOp τ sig (Elt F)) := opsL2.drop 9 ++ (opsL3 ++ (opsL4 ++ opsL5.take 6))

def opsW2 : List (HloOp τ sig (Elt F)) := opsL5.drop 6 ++ (opsL6 ++ (opsL7 ++ opsL8.take 3))

def opsW3 : List (HloOp τ sig (Elt F)) := opsL8.drop 3 ++ (opsL9 ++ opsT)

set_option maxRecDepth 8192 in
theorem main_part0_eq (c : Dev nD) : main_part0 (F := F) c = seq opsW0 := by chain_rfl
set_option maxRecDepth 8192 in
theorem main_part1_eq (c : Dev nD) : main_part1 (F := F) c = seq opsW1 := by chain_rfl
set_option maxRecDepth 8192 in
theorem main_part2_eq (c : Dev nD) : main_part2 (F := F) c = seq opsW2 := by chain_rfl
set_option maxRecDepth 8192 in
theorem main_part3_eq (c : Dev nD) : main_part3 (F := F) c = seq opsW3 := by chain_rfl

theorem opsAll_eq_stretches : (opsAll : List (HloOp τ sig (Elt F))) = opsW0 ++ (opsW1 ++ (opsW2 ++ opsW3)) := by chain_rfl

set_option maxRecDepth 8192 in

-- @main is the straight line of its 246 operations: four stretches of the text, twelve lists here, the same operations
theorem main_eq (c : Dev nD) : main (F := F) c = seq opsAll := by
  rw [opsAll_eq_stretches]
  simp only [seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

end Cert.RefRun

end
-- ==== Proof.RefRun.Seq.lean ====
import proofs.«415765_j59210419143216_1_alg».proof.Proof.RefRun.MainEq
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem opsAll_sub : (opsAll : List (HloOp τ sig (Elt F))).Forall fun op => op.bufs ⊆ tcRefs τ sig :=
  List.forall_iff_forall_mem.mpr fun op h => by
    simp only [opsAll, List.mem_append] at h
    rcases h with h | h | h | h | h | h | h | h | h | h | h | h
    exacts [List.forall_iff_forall_mem.mp opsG_sub op h, List.forall_iff_forall_mem.mp opsL0_sub op h, List.forall_iff_forall_mem.mp opsL1_sub op h, List.forall_iff_forall_mem.mp opsL2_sub op h, List.forall_iff_forall_mem.mp opsL3_sub op h, List.forall_iff_forall_mem.mp opsL4_sub op h, List.forall_iff_forall_mem.mp opsL5_sub op h, List.forall_iff_forall_mem.mp opsL6_sub op h, List.forall_iff_forall_mem.mp opsL7_sub op h, List.forall_iff_forall_mem.mp opsL8_sub op h, List.forall_iff_forall_mem.mp opsL9_sub op h, List.forall_iff_forall_mem.mp opsT_sub op h]

theorem opsAll_fresh : ∀ op ∈ (opsAll : List (HloOp τ sig (Elt F))), op.fresh = ∅ := fun op h => by
  simp only [opsAll, List.mem_append] at h
  rcases h with h | h | h | h | h | h | h | h | h | h | h | h
  exacts [List.forall_iff_forall_mem.mp opsG_fresh op h, List.forall_iff_forall_mem.mp opsL0_fresh op h, List.forall_iff_forall_mem.mp opsL1_fresh op h, List.forall_iff_forall_mem.mp opsL2_fresh op h, List.forall_iff_forall_mem.mp opsL3_fresh op h, List.forall_iff_forall_mem.mp opsL4_fresh op h, List.forall_iff_forall_mem.mp opsL5_fresh op h, List.forall_iff_forall_mem.mp opsL6_fresh op h, List.forall_iff_forall_mem.mp opsL7_fresh op h, List.forall_iff_forall_mem.mp opsL8_fresh op h, List.forall_iff_forall_mem.mp opsL9_fresh op h, List.forall_iff_forall_mem.mp opsT_fresh op h]

-- every execution ends with each buffer at the fold of the operations over its launch contents
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.RefRun

end
-- ==== Proof.RefRun.lean ====
import proofs.«415765_j59210419143216_1_alg».proof.Proof.RefRun.Value
import proofs.«415765_j59210419143216_1_alg».proof.Proof.RefRun.Seq

noncomputable section

namespace Cert.RefRun

open Cert.ReferenceIdeal Cert.ReferenceIdeal.Gen Cert.RefBridge Idealize.ShloMosaic Idealize.ShloMosaic.TcCoe Idealize.SL.Sem Idealize.ShloMosaic.StableHlo

/-- every execution of @main ends with the result buffer at the specification's result of the launched arguments, which are kept -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
        r.2.mem ((c.tc : Thread nD τ).loc main_v193)
          = Cert.Spec.result (lookup (m ((c.tc : Thread nD τ).loc main_arg0)) (m ((c.tc : Thread nD τ).loc main_arg1)))
              (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c =>
    have a := opsAll_val (launchContents m c)
    ⟨(h c main_v193).trans a.1, (h c main_arg0).trans a.2.1, (h c main_arg1).trans a.2.2.1, (h c main_arg2).trans a.2.2.2.1,
      (h c main_arg3).trans a.2.2.2.2.1, (h c main_arg4).trans a.2.2.2.2.2⟩) (run_all m ρ)

end Cert.RefRun

end
-- ==== Proof.lean ====
import proofs.«415765_j59210419143216_1_alg».proof.Defs
import proofs.«415765_j59210419143216_1_alg».proof.Proof.Gen.Kernel
import proofs.«415765_j59210419143216_1_alg».proof.Proof.Gen.KernelIdeal
import proofs.«415765_j59210419143216_1_alg».proof.Proof.Gen.ReferenceIdeal
import proofs.«415765_j59210419143216_1_alg».proof.Proof.Gen.Pre_finite_inputs
import proofs.«415765_j59210419143216_1_alg».proof.Proof.WordLevel
import proofs.«415765_j59210419143216_1_alg».proof.Proof.KI.RunMain
import proofs.«415765_j59210419143216_1_alg».proof.Proof.KI.Value0
import proofs.«415765_j59210419143216_1_alg».proof.Proof.KI.Value1
import proofs.«415765_j59210419143216_1_alg».proof.Proof.HostK
import proofs.«415765_j59210419143216_1_alg».proof.Proof.RefValue
import proofs.«415765_j59210419143216_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- the word-level program is the idealized program's text, so the one frame proof, generic in the float instance, serves both -/
theorem frame_k : Cert.frame_Kernel := fun m ρ _ => by
  rw [Cert.Kernel.defs_eq]
  exact (θ_run _ _ _).mono (fun _ (h : ∀ c, _ ∧ _) c => (h c).2) (Cert.KernelIdeal.Fr.run_main (F := Bits) m ρ)

theorem frame_ki : Cert.frame_KernelIdeal := fun m ρ _ =>
  (θ_run Cert.KernelIdeal.defs _ _).mono (fun _ h c => (h c).2) (Cert.KernelIdeal.Fr.run_main (F := Ideal) m ρ)

theorem frame_ri : Cert.frame_ReferenceIdeal := fun m ρ _ =>
  (θ_run Cert.ReferenceIdeal.defs _ _).mono (fun _ h c => (h c).2) (Cert.RefRun.run m ρ)

section Value

open Cert.KernelIdeal Cert.KernelIdeal.Gen Cert.KernelIdeal.Fr

theorem kernel_value (m : (ℓ : Loc nD τ sig) → Buf (Elt Ideal) ℓ) (c : Dev nD)
    (hpre : Cert.Pre_KernelIdeal (hPre_finite_inputs := Cert.Pre_finite_inputs.Gen.facts) m) :
    (res1 (F := Ideal) m c : FVec Ideal S256x32000 .f32)
      = Cert.Spec.result (Cert.RefBridge.lookup (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  have h1 := Cert.KernelIdeal.Val1.final1 (E1 (F := Ideal) m) c
  have h0 := Cert.KernelIdeal.Val0.final0 (E0 (F := Ideal) m) c (m ((c.tc : Thread nD τ).loc main_arg2))
    (Cert.KernelIdeal.HostK.wself_apply m c) (Cert.KernelIdeal.HostK.wprev_apply m c)
  have hg := Cert.KernelIdeal.HostK.h0_eq m c hpre
  have hv5 : (E1 (F := Ideal) m c main_v5 : FVec Ideal S256x256 .f32) = (res0 (F := Ideal) m c : FVec Ideal S256x256 .f32) :=
    (Cert.KernelIdeal.HostK.v0_kept m (outs0 m) c).trans (outs0_v5 m 3 c)
  have hw : (E1 (F := Ideal) m c main_arg3 : FVec Ideal S32000x256 .f32) = m ((c.tc : Thread nD τ).loc main_arg3) :=
    Cert.KernelIdeal.HostK.wout_kept m (outs0 m) c
  have hb : (fun j : Cert.Spec.TB.Idx => (E1 (F := Ideal) m c main_v6 : FVec Ideal S1x32000 .f32) (ix2 (0 : Fin 1) (j 0)))
      = (m ((c.tc : Thread nD τ).loc main_arg4) : FVec Ideal S32000 .f32) := by
    funext j
    rw [eq_ix1 j]
    exact Cert.KernelIdeal.HostK.bias_apply m (outs0 m) c (j 0)
  unfold res1
  rw [h1, hv5, hw, hb]
  unfold res0
  rw [h0]
  unfold Cert.Spec.result
  rw [show (E0 (F := Ideal) m c main_v0 : FVec Ideal S256x256x256 .f32) = (V2 m c main_v0 : FVec Ideal S256x256x256 .f32) from rfl, hg]

end Value

theorem algebraic : Cert.algebraic_KernelIdeal_ReferenceIdeal := by
  intro m ρ m' ρ' hpre hagree
  refine ⟨fun c => Cert.KernelIdeal.Fr.res1 (F := Ideal) m c, Cert.KernelIdeal.Fr.run_main (F := Ideal) m ρ, ?_⟩
  refine (θ_run Cert.ReferenceIdeal.defs _ _).mono (fun _ h c => ⟨(h c).1.trans ?_, (h c).2⟩) (Cert.RefRun.run m' ρ')
  rw [(hagree c).1, (hagree c).2.1, (hagree c).2.2.1, (hagree c).2.2.2.1, (hagree c).2.2.2.2]
  exact (kernel_value m c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
